-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x64 : Shape := ⟨2, ![16384, 64]⟩
abbrev S64x64 : Shape := ⟨2, ![64, 64]⟩
abbrev S32x64 : Shape := ⟨2, ![32, 64]⟩
abbrev S32x32 : Shape := ⟨2, ![32, 32]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  main_v23

def fn {F : FTy → Type} [FloatOps F] (main_arg0 : FVec F S16384x16384 .f32) (main_arg1 : FVec F S16384x64 .f32) (main_arg2 : FVec F S64x64 .f32) (main_arg3 : FVec F S32x64 .f32) (main_arg4 : FVec F S32x32 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_v13 main_v16
-- ==== Kernel.lean ====
abbrev S16384x16384 : Shape := ⟨2, ![16384, 16384]⟩
abbrev S16384x64 : Shape := ⟨2, ![16384, 64]⟩
abbrev S64x64 : Shape := ⟨2, ![64, 64]⟩
abbrev S32x64 : Shape := ⟨2, ![32, 64]⟩
abbrev S32x32 : Shape := ⟨2, ![32, 32]⟩
abbrev S2048x1024 : Shape := ⟨2, ![2048, 1024]⟩
abbrev S1024x64 : Shape := ⟨2, ![1024, 64]⟩
abbrev S2048x64 : Shape := ⟨2, ![2048, 64]⟩
abbrev S16384x32 : Shape := ⟨2, ![16384, 32]⟩
abbrev S2048x32 : Shape := ⟨2, ![2048, 32]⟩
abbrev S64x32 : Shape := ⟨2, ![64, 32]⟩
abbrev S1024x32 : Shape := ⟨2, ![1024, 32]⟩

abbrev nBuf : Space → Nat
  | .hbm => 8
  | .vmem => 24
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64x64, .f32⟩
  | .hbm, ⟨3, _⟩ => ⟨S32x64, .f32⟩
  | .hbm, ⟨4, _⟩ => ⟨S32x32, .f32⟩
  | .hbm, ⟨5, _⟩ => ⟨S16384x64, .f32⟩
  | .hbm, ⟨6, _⟩ => ⟨S16384x32, .f32⟩
  | .hbm, ⟨7, _⟩ => ⟨S16384x32, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S64x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x1024, .f32⟩
  | .local _ .vmem, ⟨9, _⟩ => ⟨S2048x1024, .f32⟩
  | .local _ .vmem, ⟨10, _⟩ => ⟨S1024x64, .f32⟩
  | .local _ .vmem, ⟨11, _⟩ => ⟨S1024x64, .f32⟩
  | .local _ .vmem, ⟨12, _⟩ => ⟨S32x64, .f32⟩
  | .local _ .vmem, ⟨13, _⟩ => ⟨S2048x32, .f32⟩
  | .local _ .vmem, ⟨14, _⟩ => ⟨S2048x32, .f32⟩
  | .local _ .vmem, ⟨15, _⟩ => ⟨S2048x64, .f32⟩
  | .local _ .vmem, ⟨16, _⟩ => ⟨S2048x1024, .f32⟩
  | .local _ .vmem, ⟨17, _⟩ => ⟨S2048x1024, .f32⟩
  | .local _ .vmem, ⟨18, _⟩ => ⟨S1024x32, .f32⟩
  | .local _ .vmem, ⟨19, _⟩ => ⟨S1024x32, .f32⟩
  | .local _ .vmem, ⟨20, _⟩ => ⟨S32x32, .f32⟩
  | .local _ .vmem, ⟨21, _⟩ => ⟨S2048x32, .f32⟩
  | .local _ .vmem, ⟨22, _⟩ => ⟨S2048x32, .f32⟩
  | .local _ .vmem, ⟨23, _⟩ => ⟨S2048x32, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S1024x64_S1024x64 : S1024x64.ShapeCasts S1024x64
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  dot_S2048x1024_S1024x64_S2048x64_1_0_0_1_n_n_wf : DotDims.WF S2048x1024 S1024x64 S2048x64 [1] [0] [0] [1] [] []
  dot_S2048x64_S64x64_S2048x64_1_0_0_1_n_n_wf : DotDims.WF S2048x64 S64x64 S2048x64 [1] [0] [0] [1] [] []
  dot_S2048x64_S64x32_S2048x32_1_0_0_1_n_n_wf : DotDims.WF S2048x64 S64x32 S2048x32 [1] [0] [0] [1] [] []
  dot_S2048x1024_S1024x32_S2048x32_1_0_0_1_n_n_wf : DotDims.WF S2048x1024 S1024x32 S2048x32 [1] [0] [0] [1] [] []
  dot_S2048x32_S32x32_S2048x32_1_0_0_1_n_n_wf : DotDims.WF S2048x32 S32x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S16384x64.size a
  hwx1_1 : ∀ i : grid1.Coords, EltTy.bits .f32 = 32 ∨ (Rect.block (s := S16384x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x32.size a ≤ S16384x32.size a
  hwx1_3 : ∀ i : grid1.Coords, EltTy.bits .f32 = 32 ∨ (Rect.block (s := S16384x32) S2048x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S16384x16384.size a
  hwx2_0 : ∀ i : grid2.Coords, EltTy.bits .f32 = 32 ∨ (Rect.block (s := S16384x16384) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x32.size a ≤ S16384x32.size a
  hwx2_1 : ∀ i : grid2.Coords, EltTy.bits .f32 = 32 ∨ (Rect.block (s := S16384x32) S1024x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x32.size a ≤ S16384x32.size a
  hwx2_3 : ∀ i : grid2.Coords, EltTy.bits .f32 = 32 ∨ (Rect.block (s := S16384x32) S2048x32.size (cc2_transform_3 i) (hinb2_3 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x1024_S1024x32_S2048x32_1_0_0_1_n_n : DotDims S2048x1024 S1024x32 S2048x32 where
  lhsContracting := [1]
  rhsContracting := [0]
  lhsNonContracting := [0]
  rhsNonContracting := [1]
  lhsBatch := []
  rhsBatch := []
  wf := dot_S2048x1024_S1024x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg0) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S2048x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x64 : Shape := ⟨2, ![16384, 64]⟩
abbrev S64x64 : Shape := ⟨2, ![64, 64]⟩
abbrev S32x64 : Shape := ⟨2, ![32, 64]⟩
abbrev S32x32 : Shape := ⟨2, ![32, 32]⟩
abbrev S_ : Shape := ⟨0, ![]⟩
abbrev S64x32 : Shape := ⟨2, ![64, 32]⟩
abbrev S16384x32 : Shape := ⟨2, ![16384, 32]⟩

abbrev nBuf : Space → Nat
  | .hbm => 20
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64x64, .f32⟩
  | .hbm, ⟨3, _⟩ => ⟨S32x64, .f32⟩
  | .hbm, ⟨4, _⟩ => ⟨S32x32, .f32⟩
  | .hbm, ⟨5, _⟩ => ⟨S16384x64, .f32⟩
  | .hbm, ⟨6, _⟩ => ⟨S64x64, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S64x32, .f32⟩
  | .hbm, ⟨13, _⟩ => ⟨S16384x32, .f32⟩
  | .hbm, ⟨14, _⟩ => ⟨S_, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S32x32, .f32⟩
  | .hbm, ⟨19, _⟩ => ⟨S16384x32, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_cst : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  transposes_S64x64_S64x64_1_0 : S64x64.Transposes [1, 0] S64x64
  bcast_S_S16384x64 : S_.BroadcastsInDim S16384x64 (![] : Fin 0 → Fin S16384x64.rank)
  transposes_S32x64_S64x32_1_0 : S32x64.Transposes [1, 0] S64x32
  bcast_S_S16384x32 : S_.BroadcastsInDim S16384x32 (![] : Fin 0 → Fin S16384x32.rank)
  transposes_S32x32_S32x32_1_0 : S32x32.Transposes [1, 0] S32x32
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []
  dot_S16384x64_S64x32_S16384x32_1_0_0_1_n_n_wf : DotDims.WF S16384x64 S64x32 S16384x32 [1] [0] [0] [1] [] []
  dot_S16384x16384_S16384x32_S16384x32_1_0_0_1_n_n_wf : DotDims.WF S16384x16384 S16384x32 S16384x32 [1] [0] [0] [1] [] []
  dot_S16384x32_S32x32_S16384x32_1_0_0_1_n_n_wf : DotDims.WF S16384x32 S32x32 S16384x32 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

class Facts : Prop extends Facts₀ where

variable [Facts]
-- ==== Proof.K.R0Runs.lean ====
import proofs.«141569_j26164940767949_1_alg».proof.Proof.Gen.Kernel.Launch
import proofs.«141569_j26164940767949_1_alg».proof.Proof.Gen.Kernel.Skeleton
import proofs.«141569_j26164940767949_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
/-- Point t = 16·i + k is row block i at contraction step k: the accumulator is reset exactly when k = 0. -/
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
/-- The output block is computed and stored exactly at the last contraction step, k = 15. -/
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev VO0_3 : View sig .tc .vmem S2048x64 .f32 := (Memref.whole cc0_stg3_0 : Memref sig .tc .vmem S2048x64 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
abbrev scM0_0 : Memref sig .tc .vmem S2048x64 .f32 := Memref.whole cc0_scratch0
abbrev VS0_0 : View sig .tc .vmem S2048x64 .f32 := scM0_0.view

/-- Every scoped buffer that is neither a staging buffer of this call nor its accumulator: this region never touches them. -/
def others0 (c : Dev nD) : sProp 𝕄 :=
  Pipeline.scopedRestBut (Ix := Unit) (Name := ℕ) (U := UR sig nD τ) (Lvl := ℕ) (Val := Elt F) spec0 c [cc0_scratch0]

/-- The region's invariant before its first point, with the accumulator split off the scoped rest. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0
  rw [Pipeline.scopedRest_split_of_list spec0 c [cc0_scratch0] (by decide) (by decide)]
  simp only [scM0_0, owns_whole, bigSepL_singleton]; try rfl

end Cert.Kernel.Hand

end
-- ==== Proof.K.R0Cases.lean ====
import proofs.«141569_j26164940767949_1_alg».proof.Proof.K.R0Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole)
  (x0 : Vec F S2048x1024 .f32) (x1 : Vec F S1024x64 .f32) (x2 : Vec F S64x64 .f32)

/-- Contraction step 0: the accumulator is stored whole twice (the zero splat, then zero plus the step's block product), so
    what it held before does not matter; the output block is untouched. -/
noncomputable def kernelRun0_A (hc0 : cond0_0 i) (hc1 : ¬cond0_1 i) :
    { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_kernel i arg2 harg2 arg3 harg3 arg4 harg4 arg5 harg5 arg6 harg6) K } := by
  refine ⟨?_, fun xi3 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- A contraction step strictly between the first and the last: the accumulator is stored whole once (what it held plus the
    step's block product); the output block is untouched. -/
noncomputable def kernelRun0_B (hc0 : ¬cond0_0 i) (hc1 : ¬cond0_1 i) (xs0 : Vec F S2048x64 .f32) :
    { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_kernel i arg2 harg2 arg3 harg3 arg4 harg4 arg5 harg5 arg6 harg6) K } := by
  refine ⟨?_, fun xi3 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Contraction step 15: the accumulator is stored whole once (what it held plus the step's block product) and read back,
    and the output block is stored whole from it and the weights. -/
noncomputable def kernelRun0_C (hc0 : ¬cond0_0 i) (hc1 : cond0_1 i) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_kernel i arg2 harg2 arg3 harg3 arg4 harg4 arg5 harg5 arg6 harg6) K } := by
  refine ⟨?_, ?_, fun xi3 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.LibFrame.lean ====
import Idealize.ShloMosaic.Lib.Pipeline.FrameBody

namespace Cert.Lib

open Idealize.ShloMosaic
open Idealize.SL Idealize.SL.RA Idealize.SL.BI
open scoped Idealize.SL.BI
open Idealize.SL.BI.BIBase Idealize.SL.BI.Laws Idealize.SL.ProofMode

/-- Framing a body's run into a grid point's obligation. The run `w` consumes three input resources, a fourth at any
    index `x`, and a carried resource `S`, and returns the inputs, `R3 x` and `S'`. Around it ride, untouched, `Oth`,
    `G` and `O`; the carried resource is weakened on the way in (`hS₀`) and on the way out (`hT`), and the fourth
    resource, found at some `g d`, is weakened on the way out (`h3`). -/
theorem body_frame {M : Type _} [URA M] {w : (PUnit → sProp M) → sProp M} {α δ δ0 δ1 δ2 : Type _} (g : δ → α)
    {P0 P1 P2 S₀ S S' T Oth G O Q3 : sProp M} {P3 R3 : α → sProp M}
    (run : ∀ (x : α) (K : PUnit → sProp M), iprop(P0 ∗ P1 ∗ P2 ∗ P3 x ∗ S ∗ (iprop(P0 ∗ P1 ∗ P2 ∗ R3 x ∗ S') -∗ K ⟨⟩)) ⊢ w K)
    (hS₀ : S₀ ⊢ S) (hT : S' ⊢ T) (h3 : ∀ d, R3 (g d) ⊢ Q3) :
    iprop(iprop(iprop(S₀ ∗ Oth) ∗ G) ∗ O ∗ (∃ _ : δ0, P0) ∗ (∃ _ : δ1, P1) ∗ (∃ _ : δ2, P2) ∗ (∃ d, P3 (g d)))
      ⊢ w fun _ => iprop(iprop(iprop(T ∗ Oth) ∗ G) ∗ O ∗ P0 ∗ P1 ∗ P2 ∗ Q3) := by
  iintro ⟨⟨⟨HS, Hoth⟩, Hg⟩, Ho, ⟨%_, H0⟩, ⟨%_, H1⟩, ⟨%_, H2⟩, ⟨%d, H3⟩⟩
  iapply run (g d)
  isplitl [H0]; · iexact H0
  isplitl [H1]; · iexact H1
  isplitl [H2]; · iexact H2
  isplitl [H3]; · iexact H3
  isplitl [HS]; · iapply hS₀; iexact HS
  iintro ⟨H0, H1, H2, H3, HS⟩
  isplitl [HS Hoth Hg]
  · isplitl [HS Hoth]
    · isplitl [HS]; · iapply hT; iexact HS
      iexact Hoth
    iexact Hg
  isplitl [Ho]; · iexact Ho
  isplitl [H0]; · iexact H0
  isplitl [H1]; · iexact H1
  isplitl [H2]; · iexact H2
  iapply h3 d; iexact H3

variable {nD : Nat} {τ : Topo} {sig : RefSig} {Val : EltTy → Type}
variable {Ix : Type} [DecidableEq Ix] {Name : Type} [DecidableEq Name] {U : Type} [URA U] {Lvl : Type}

/-- A buffer left by a list of stores that covers it is owned at the stores read back, through any view of its shape
    and whatever it held before. -/
theorem owns_of_writes (c : Thread nD τ) {sp sp' : Space} {κ' : Kind} {sh : Shape} {e : EltTy} (m : Memref sig c.2.kind sp sh e) (q : PosShare TreeShare)
    (L : List (View.Piece Val sh e)) {v' : View sig κ' sp' sh e} {f' : v'.ty.Contents Val} (hcov : ∀ y, ∃ p ∈ L, y ∈ p.1.set) :
    (iprop(∃ f, m.view.loc c ↦[m.view.set]{q} m.view.writes Val f L) : sProp (MT nD τ sig Ix Val Name U Lvl))
      ⊢ owns c m q (v'.read Val (v'.writes Val f' L)) := by
  unfold owns
  iintro ⟨%f, H⟩
  iexists _; isplitr; swap; · iexact H
  ipureintro; exact View.read_writes_of_cover _ _ _ _ _ hcov

end Cert.Lib
-- ==== Proof.K.R0Body.lean ====
import proofs.«141569_j26164940767949_1_alg».proof.Proof.K.R0Cases
import proofs.«141569_j26164940767949_1_alg».proof.Proof.LibFrame

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A placeholder for the output block where no case stores into it: nothing consults it. -/
def outIdle0 : Vec F S2048x64 .f32 := VO0_3.read (Elt F) (VO0_3.writes (Elt F) VO0_3.junk [])

section Point

variable (c : Dev nD) (t : Fin cfg0.N) (x0 : Vec F S2048x1024 .f32) (x1 : Vec F S1024x64 .f32) (x2 : Vec F S64x64 .f32)

abbrev runA0 (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) scM0_0 (Memref.isWhole_whole _) x0 x1 x2 ((hcond0_0 t).mpr h0) (fun h => h1 ((hcond0_1 t).mp h))
abbrev runB0 (h0 : ¬t.val % 16 = 0) (h1 : ¬t.val % 16 = 15) (xs0 : Vec F S2048x64 .f32) :=
  kernelRun0_B c (grid0.coords t) (ms0_0 t) (hs0_0 t) (ms0_1 t) (hs0_1 t) (ms0_2 t) (hs0_2 t) (ms0_3 t) (hs0_3 t) scM0_0 (Memref.isWhole_whole _) x0 x1 x2 (fun h => h0 ((hcond0_0 t).mp h)) (fun h => h1 ((hcond0_1 t).mp h)) xs0
abbrev runC0 (h0 : ¬t.val % 16 = 0) (h1 : t.val % 16 = 15) (xs0 : Vec F S2048x64 .f32) :=
  kernelRun0_C c (grid0.coords t) (ms0_0 t) (hs0_0 t) (ms0_1 t) (hs0_1 t) (ms0_2 t) (hs0_2 t) (ms0_3 t) (hs0_3 t) scM0_0 (Memref.isWhole_whole _) x0 x1 x2 (fun h => h0 ((hcond0_0 t).mp h)) ((hcond0_1 t).mpr h1) xs0

/-- The accumulator after contraction step 0. -/
def soutA0 (h0 : t.val % 16 = 0) (h1 : ¬t.val % 16 = 15) : Vec F S2048x64 .f32 :=
  VS0_0.read (Elt F) (VS0_0.writes (Elt F) VS0_0.junk (runA0 c t x0 x1 x2 h0 h1).1)
theorem scoverA0 (h0 : t.val % 16 = 0) (h1 : ¬t.val % 16 = 15) : ∀ y, ∃ pc ∈ (runA0 c t x0 x1 x2 h0 h1).1, y ∈ pc.1.set :=
  View.cover_of_tiledL _ S2048x64.size (by sl_kernel_rfl)

/-- The accumulator after a middle contraction step, over what the step before left (`xs0`). -/
def soutB0 (h0 : ¬t.val % 16 = 0) (h1 : ¬t.val % 16 = 15) (xs0 : Vec F S2048x64 .f32) : Vec F S2048x64 .f32 :=
  VS0_0.read (Elt F) (VS0_0.writes (Elt F) VS0_0.junk (runB0 c t x0 x1 x2 h0 h1 xs0).1)
theorem scoverB0 (h0 : ¬t.val % 16 = 0) (h1 : ¬t.val % 16 = 15) (xs0 : Vec F S2048x64 .f32) : ∀ y, ∃ pc ∈ (runB0 c t x0 x1 x2 h0 h1 xs0).1, y ∈ pc.1.set :=
  View.cover_of_tiledL _ S2048x64.size (by sl_kernel_rfl)

/-- The output block and the accumulator after the last contraction step. -/
def outC0 (h0 : ¬t.val % 16 = 0) (h1 : t.val % 16 = 15) (xs0 : Vec F S2048x64 .f32) : Vec F S2048x64 .f32 :=
  VO0_3.read (Elt F) (VO0_3.writes (Elt F) VO0_3.junk (runC0 c t x0 x1 x2 h0 h1 xs0).1)
def soutC0 (h0 : ¬t.val % 16 = 0) (h1 : t.val % 16 = 15) (xs0 : Vec F S2048x64 .f32) : Vec F S2048x64 .f32 :=
  VS0_0.read (Elt F) (VS0_0.writes (Elt F) VS0_0.junk (runC0 c t x0 x1 x2 h0 h1 xs0).2.1)
theorem coverC0 (h0 : ¬t.val % 16 = 0) (h1 : t.val % 16 = 15) (xs0 : Vec F S2048x64 .f32) : ∀ y, ∃ pc ∈ (runC0 c t x0 x1 x2 h0 h1 xs0).1, y ∈ pc.1.set :=
  View.cover_of_tiledL _ S2048x64.size (by sl_kernel_rfl)
theorem scoverC0 (h0 : ¬t.val % 16 = 0) (h1 : t.val % 16 = 15) (xs0 : Vec F S2048x64 .f32) : ∀ y, ∃ pc ∈ (runC0 c t x0 x1 x2 h0 h1 xs0).2.1, y ∈ pc.1.set :=
  View.cover_of_tiledL _ S2048x64.size (by sl_kernel_rfl)

end Point

/-- What point `t` leaves in the output block and the accumulator, over what the point before left in the accumulator:
    the case the point's contraction step selects. -/
def step0 (c : Dev nD) (t : Fin cfg0.N) (xs0 : Vec F S2048x64 .f32) : Vec F S2048x64 .f32 × Vec F S2048x64 .f32 :=
  if h0 : t.val % 16 = 0 then (outIdle0, soutA0 c t (iblk0 V c 0 t) (iblk0 V c 1 t) (iblk0 V c 2 t) h0 (by omega))
  else if h1 : t.val % 16 = 15 then (outC0 c t (iblk0 V c 0 t) (iblk0 V c 1 t) (iblk0 V c 2 t) h0 h1 xs0, soutC0 c t (iblk0 V c 0 t) (iblk0 V c 1 t) (iblk0 V c 2 t) h0 h1 xs0)
  else (outIdle0, soutB0 c t (iblk0 V c 0 t) (iblk0 V c 1 t) (iblk0 V c 2 t) h0 h1 xs0)

/-- The output block and the accumulator after the body at position `n`. -/
def outsAt0 (c : Dev nD) : (n : ℕ) → n < cfg0.N → Vec F S2048x64 .f32 × Vec F S2048x64 .f32
  | 0, hn => step0 V c ⟨0, hn⟩ (VS0_0.read (Elt F) VS0_0.junk)
  | n + 1, hn => step0 V c ⟨n + 1, hn⟩ (outsAt0 c n (Nat.lt_of_succ_lt hn)).2

theorem outsAt0_eq (c : Dev nD) (t : Fin cfg0.N) (h0 : ¬t.val % 16 = 0) : outsAt0 V c t.val t.isLt = step0 V c t (outsAt0 V c (t.val - 1) (Nat.lt_of_le_of_lt (Nat.sub_le _ _) t.isLt)).2 := by
  obtain ⟨n, hn⟩ := t
  cases n with
  | zero => exact absurd (Nat.zero_mod _) h0
  | succ n => rfl

theorem outsAt0_A (c : Dev nD) (t : Fin cfg0.N) (h0 : t.val % 16 = 0) :
    outsAt0 V c t.val t.isLt = (outIdle0, soutA0 c t (iblk0 V c 0 t) (iblk0 V c 1 t) (iblk0 V c 2 t) h0 (by omega)) := by
  obtain ⟨n, hn⟩ := t
  cases n <;> (show step0 V c _ _ = _; exact dif_pos h0)
theorem outsAt0_B (c : Dev nD) (t : Fin cfg0.N) (h0 : ¬t.val % 16 = 0) (h1 : ¬t.val % 16 = 15) :
    outsAt0 V c t.val t.isLt = (outIdle0, soutB0 c t (iblk0 V c 0 t) (iblk0 V c 1 t) (iblk0 V c 2 t) h0 h1 (outsAt0 V c (t.val - 1) (Nat.lt_of_le_of_lt (Nat.sub_le _ _) t.isLt)).2) :=
  (outsAt0_eq V c t h0).trans ((dif_neg h0).trans (dif_neg h1))
theorem outsAt0_C (c : Dev nD) (t : Fin cfg0.N) (h0 : ¬t.val % 16 = 0) (h1 : t.val % 16 = 15) :
    outsAt0 V c t.val t.isLt = (outC0 c t (iblk0 V c 0 t) (iblk0 V c 1 t) (iblk0 V c 2 t) h0 h1 (outsAt0 V c (t.val - 1) (Nat.lt_of_le_of_lt (Nat.sub_le _ _) t.isLt)).2, soutC0 c t (iblk0 V c 0 t) (iblk0 V c 1 t) (iblk0 V c 2 t) h0 h1 (outsAt0 V c (t.val - 1) (Nat.lt_of_le_of_lt (Nat.sub_le _ _) t.isLt)).2) :=
  (outsAt0_eq V c t h0).trans ((dif_neg h0).trans (dif_pos h1))

/-- The accumulator before position `n`: anything before the first point, afterwards what the point before left. -/
def acc0 (c : Dev nD) : (n : ℕ) → n ≤ cfg0.N → sProp 𝕄
  | 0, _ => iprop(∃ d, owns (c : Thread nD τ) scM0_0 fullShare d)
  | n + 1, hn => owns (c : Thread nD τ) scM0_0 fullShare (outsAt0 V c n hn).2
theorem acc0_any (c : Dev nD) (n : ℕ) (h : n ≤ cfg0.N) : acc0 V c n h ⊢ iprop(∃ d, owns (c : Thread nD τ) scM0_0 fullShare d) := by
  cases n with
  | zero => exact .rfl
  | succ n => show owns (c : Thread nD τ) scM0_0 fullShare _ ⊢ _; iintro H; iexists _; iexact H
theorem acc0_pos (c : Dev nD) (n : ℕ) (h : n ≤ cfg0.N) (hz : n ≠ 0) :
    acc0 V c n h = owns (c : Thread nD τ) scM0_0 fullShare (outsAt0 V c (n - 1) (by omega)).2 := by
  cases n with
  | zero => exact absurd rfl hz
  | succ n => rfl

/-- The region's invariant before position `n`: the accumulator, the other calls' scoped buffers, the generator register. -/
def PhiS0 (c : Dev nD) (n : ℕ) (h : n ≤ cfg0.N) : sProp 𝕄 :=
  iprop(iprop(acc0 V c n h ∗ others0 (F := F) c) ∗ (∃ r, prngReg c r))

/-- The region's proof data at the entry contents `V`: each input's buffer at its block, the output block and the
    accumulator at `outsAt0`, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = (outsAt0 V c t.val t.isLt).1 := rfl
/-- An input window's staging buffer holds its block at every point, fetched there or not. -/
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

/-- The body at any point: the point's contraction step says which case it is in; the invariant hands the body the
    accumulator at what the point before left (at anything before the first point) and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2]
  rw [show (dat0 V c).owesAt () t.succ = (dat0 V c).owesAt () t.castSucc from rfl,
    show (dat0 V c).Φ t.succ = iprop(iprop(owns (c : Thread nD τ) scM0_0 fullShare (outsAt0 V c t.val t.isLt).2 ∗ others0 (F := F) c) ∗ (∃ r, prngReg c r)) from rfl,
    show (dat0 V c).Φ t.castSucc = iprop(iprop(acc0 V c t.val (Nat.le_of_lt t.isLt) ∗ others0 (F := F) c) ∗ (∃ r, prngReg c r)) from rfl,
    show (dat0 V c).leavesExact 0 t = owns (c : Thread nD τ) (ms0_0 t) fullShare (iblk0 V c 0 t) from by unfold Dat.leavesExact; rw [liveAt0_0 t]; rfl,
    show (dat0 V c).leavesExact 1 t = owns (c : Thread nD τ) (ms0_1 t) fullShare (iblk0 V c 1 t) from by unfold Dat.leavesExact; rw [liveAt0_1 t]; rfl,
    show (dat0 V c).leavesExact 2 t = owns (c : Thread nD τ) (ms0_2 t) fullShare (iblk0 V c 2 t) from by unfold Dat.leavesExact; rw [liveAt0_2 t]; rfl]
  have idle3 := fun h1 : ¬t.val % 16 = 15 => Dat.leavesExact_idle (dat0 V c) 3 t
    (idleAt0_3 t fun h => h1 ((hcond0_1 t).mp h)) (noFlush0_3 t fun h => h1 ((hcond0_1 t).mp h))
  by_cases h0 : t.val % 16 = 0
  · rw [idle3 (by omega), outsAt0_A V c t h0]
    unfold soutA0; dsimp only
    have hrun := fun x K => (runA0 c t (iblk0 V c 0 t) (iblk0 V c 1 t) (iblk0 V c 2 t) h0 (by omega)).2 x Set.univ K
    exact Cert.Lib.body_frame (w := wp frame (wpE (defs₀ (F := F)) Variants.none c none) Set.univ (bodyAt0 t)) ((dat0 V c).before 3 t) hrun (acc0_any V c _ _)
      (Cert.Lib.owns_of_writes (c : Thread nD τ) scM0_0 fullShare _ (scoverA0 c t _ _ _ h0 _)) fun d => by iintro H; iexists d; iexact H
  · rw [acc0_pos V c _ _ fun e => h0 (by rw [e])]
    by_cases h1 : t.val % 16 = 15
    · rw [show (dat0 V c).leavesExact 3 t = owns (c : Thread nD τ) (ms0_3 t) fullShare (outsAt0 V c t.val t.isLt).1 from by
        unfold Dat.leavesExact; rw [liveAt0_3 t ((hcond0_1 t).mpr h1)]; rfl, outsAt0_C V c t h0 h1]
      unfold outC0 soutC0; dsimp only
      have hrun := fun x K => (runC0 c t (iblk0 V c 0 t) (iblk0 V c 1 t) (iblk0 V c 2 t) h0 h1 (outsAt0 V c (t.val - 1) (Nat.lt_of_le_of_lt (Nat.sub_le _ _) t.isLt)).2).2.2 x Set.univ K
      exact Cert.Lib.body_frame (w := wp frame (wpE (defs₀ (F := F)) Variants.none c none) Set.univ (bodyAt0 t)) ((dat0 V c).before 3 t) hrun .rfl
        (Cert.Lib.owns_of_writes (c : Thread nD τ) scM0_0 fullShare _ (scoverC0 c t _ _ _ h0 h1 _)) fun _ => Cert.Lib.owns_of_writes (c : Thread nD τ) (ms0_3 t) fullShare _ (coverC0 c t _ _ _ h0 h1 _)
    · rw [idle3 h1, outsAt0_B V c t h0 h1]
      unfold soutB0; dsimp only
      have hrun := fun x K => (runB0 c t (iblk0 V c 0 t) (iblk0 V c 1 t) (iblk0 V c 2 t) h0 h1 (outsAt0 V c (t.val - 1) (Nat.lt_of_le_of_lt (Nat.sub_le _ _) t.isLt)).2).2 x Set.univ K
      exact Cert.Lib.body_frame (w := wp frame (wpE (defs₀ (F := F)) Variants.none c none) Set.univ (bodyAt0 t)) ((dat0 V c).before 3 t) hrun .rfl
        (Cert.Lib.owns_of_writes (c : Thread nD τ) scM0_0 fullShare _ (scoverB0 c t _ _ _ h0 h1 _)) fun d => by iintro H; iexists d; iexact H

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [PhiA0_eq]; exact .rfl

/-- After the last point the accumulator's contents are forgotten. -/
theorem hout0 (c : Dev nD) : (dat0 V c).Φ (Fin.last cfg0.N) ⊢ Pipeline.ΦA spec0 c := by
  rw [PhiA0_eq]; exact sep_mono (sep_mono (acc0_any V c _ _) .rfl) .rfl

end Cert.Kernel.Hand

end
-- ==== Proof.K.R1Runs.lean ====
import proofs.«141569_j26164940767949_1_alg».proof.Proof.Gen.Kernel.Launch
import proofs.«141569_j26164940767949_1_alg».proof.Proof.Gen.Kernel.Skeleton
import proofs.«141569_j26164940767949_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
/-- Point t = 16·i + k is row block i at contraction step k: the accumulator is reset exactly when k = 0. -/
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
/-- The output block is computed and stored exactly at the last contraction step, k = 15. -/
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev VO1_3 : View sig .tc .vmem S2048x32 .f32 := (Memref.whole cc1_stg3_0 : Memref sig .tc .vmem S2048x32 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x32 .f32 := win1_3.stage (cfg1.slots t 3)
abbrev hs1_3 (t : Fin cfg1.N) : (ms1_3 t).IsWhole := hstage1_3 ((cfg1.slots t 3).cast nbuf1_3)
abbrev scM1_0 : Memref sig .tc .vmem S2048x64 .f32 := Memref.whole cc1_scratch0
abbrev VS1_0 : View sig .tc .vmem S2048x64 .f32 := scM1_0.view

/-- Every scoped buffer that is neither a staging buffer of this call nor its accumulator: this region never touches them. -/
def others1 (c : Dev nD) : sProp 𝕄 :=
  Pipeline.scopedRestBut (Ix := Unit) (Name := ℕ) (U := UR sig nD τ) (Lvl := ℕ) (Val := Elt F) spec1 c [cc1_scratch0]

/-- The region's invariant before its first point, with the accumulator split off the scoped rest. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA others1
  rw [Pipeline.scopedRest_split_of_list spec1 c [cc1_scratch0] (by decide) (by decide)]
  simp only [scM1_0, owns_whole, bigSepL_singleton]; try rfl

end Cert.Kernel.Hand

end
-- ==== Proof.K.R1Cases.lean ====
import proofs.«141569_j26164940767949_1_alg».proof.Proof.K.R1Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S32x64 .f32) (harg4 : arg4.IsWhole) (arg5 : Memref sig .tc .vmem S2048x32 .f32) (harg5 : arg5.IsWhole) (arg6 : Memref sig .tc .vmem S2048x64 .f32) (harg6 : arg6.IsWhole)
  (x0 : Vec F S2048x1024 .f32) (x1 : Vec F S1024x64 .f32) (x2 : Vec F S32x64 .f32)

/-- Contraction step 0: the accumulator is stored whole twice (the zero splat, then zero plus the step's block product), so
    what it held before does not matter; the output block is untouched. -/
noncomputable def kernelRun1_A (hc0 : cond1_0 i) (hc1 : ¬cond1_1 i) :
    { LS0 : List (View.Piece (Elt F) S2048x64 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_kernel i arg2 harg2 arg3 harg3 arg4 harg4 arg5 harg5 arg6 harg6) K } := by
  refine ⟨?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- A contraction step strictly between the first and the last: the accumulator is stored whole once (what it held plus the
    step's block product); the output block is untouched. -/
noncomputable def kernelRun1_B (hc0 : ¬cond1_0 i) (hc1 : ¬cond1_1 i) (xs0 : Vec F S2048x64 .f32) :
    { LS0 : List (View.Piece (Elt F) S2048x64 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_kernel i arg2 harg2 arg3 harg3 arg4 harg4 arg5 harg5 arg6 harg6) K } := by
  refine ⟨?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Contraction step 15: the accumulator is stored whole once (what it held plus the step's block product) and read back,
    and the output block is stored whole from it and the weights. -/
noncomputable def kernelRun1_C (hc0 : ¬cond1_0 i) (hc1 : cond1_1 i) (xs0 : Vec F S2048x64 .f32) :
    Σ' (L3 : List (View.Piece (Elt F) S2048x32 .f32)), { LS0 : List (View.Piece (Elt F) S2048x64 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_kernel i arg2 harg2 arg3 harg3 arg4 harg4 arg5 harg5 arg6 harg6) K } := by
  refine ⟨?_, ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1Body.lean ====
import proofs.«141569_j26164940767949_1_alg».proof.Proof.K.R1Cases
import proofs.«141569_j26164940767949_1_alg».proof.Proof.LibFrame

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A placeholder for the output block where no case stores into it: nothing consults it. -/
def outIdle1 : Vec F S2048x32 .f32 := VO1_3.read (Elt F) (VO1_3.writes (Elt F) VO1_3.junk [])

section Point

variable (c : Dev nD) (t : Fin cfg1.N) (x0 : Vec F S2048x1024 .f32) (x1 : Vec F S1024x64 .f32) (x2 : Vec F S32x64 .f32)

abbrev runA1 (h0 : t.val % 16 = 0) (h1 : ¬t.val % 16 = 15) :=
  kernelRun1_A c (grid1.coords t) (ms1_0 t) (hs1_0 t) (ms1_1 t) (hs1_1 t) (ms1_2 t) (hs1_2 t) (ms1_3 t) (hs1_3 t) scM1_0 (Memref.isWhole_whole _) x0 x1 x2 ((hcond1_0 t).mpr h0) (fun h => h1 ((hcond1_1 t).mp h))
abbrev runB1 (h0 : ¬t.val % 16 = 0) (h1 : ¬t.val % 16 = 15) (xs0 : Vec F S2048x64 .f32) :=
  kernelRun1_B c (grid1.coords t) (ms1_0 t) (hs1_0 t) (ms1_1 t) (hs1_1 t) (ms1_2 t) (hs1_2 t) (ms1_3 t) (hs1_3 t) scM1_0 (Memref.isWhole_whole _) x0 x1 x2 (fun h => h0 ((hcond1_0 t).mp h)) (fun h => h1 ((hcond1_1 t).mp h)) xs0
abbrev runC1 (h0 : ¬t.val % 16 = 0) (h1 : t.val % 16 = 15) (xs0 : Vec F S2048x64 .f32) :=
  kernelRun1_C c (grid1.coords t) (ms1_0 t) (hs1_0 t) (ms1_1 t) (hs1_1 t) (ms1_2 t) (hs1_2 t) (ms1_3 t) (hs1_3 t) scM1_0 (Memref.isWhole_whole _) x0 x1 x2 (fun h => h0 ((hcond1_0 t).mp h)) ((hcond1_1 t).mpr h1) xs0

/-- The accumulator after contraction step 0. -/
def soutA1 (h0 : t.val % 16 = 0) (h1 : ¬t.val % 16 = 15) : Vec F S2048x64 .f32 :=
  VS1_0.read (Elt F) (VS1_0.writes (Elt F) VS1_0.junk (runA1 c t x0 x1 x2 h0 h1).1)
theorem scoverA1 (h0 : t.val % 16 = 0) (h1 : ¬t.val % 16 = 15) : ∀ y, ∃ pc ∈ (runA1 c t x0 x1 x2 h0 h1).1, y ∈ pc.1.set :=
  View.cover_of_tiledL _ S2048x64.size (by sl_kernel_rfl)

/-- The accumulator after a middle contraction step, over what the step before left (`xs0`). -/
def soutB1 (h0 : ¬t.val % 16 = 0) (h1 : ¬t.val % 16 = 15) (xs0 : Vec F S2048x64 .f32) : Vec F S2048x64 .f32 :=
  VS1_0.read (Elt F) (VS1_0.writes (Elt F) VS1_0.junk (runB1 c t x0 x1 x2 h0 h1 xs0).1)
theorem scoverB1 (h0 : ¬t.val % 16 = 0) (h1 : ¬t.val % 16 = 15) (xs0 : Vec F S2048x64 .f32) : ∀ y, ∃ pc ∈ (runB1 c t x0 x1 x2 h0 h1 xs0).1, y ∈ pc.1.set :=
  View.cover_of_tiledL _ S2048x64.size (by sl_kernel_rfl)

/-- The output block and the accumulator after the last contraction step. -/
def outC1 (h0 : ¬t.val % 16 = 0) (h1 : t.val % 16 = 15) (xs0 : Vec F S2048x64 .f32) : Vec F S2048x32 .f32 :=
  VO1_3.read (Elt F) (VO1_3.writes (Elt F) VO1_3.junk (runC1 c t x0 x1 x2 h0 h1 xs0).1)
def soutC1 (h0 : ¬t.val % 16 = 0) (h1 : t.val % 16 = 15) (xs0 : Vec F S2048x64 .f32) : Vec F S2048x64 .f32 :=
  VS1_0.read (Elt F) (VS1_0.writes (Elt F) VS1_0.junk (runC1 c t x0 x1 x2 h0 h1 xs0).2.1)
theorem coverC1 (h0 : ¬t.val % 16 = 0) (h1 : t.val % 16 = 15) (xs0 : Vec F S2048x64 .f32) : ∀ y, ∃ pc ∈ (runC1 c t x0 x1 x2 h0 h1 xs0).1, y ∈ pc.1.set :=
  View.cover_of_tiledL _ S2048x32.size (by sl_kernel_rfl)
theorem scoverC1 (h0 : ¬t.val % 16 = 0) (h1 : t.val % 16 = 15) (xs0 : Vec F S2048x64 .f32) : ∀ y, ∃ pc ∈ (runC1 c t x0 x1 x2 h0 h1 xs0).2.1, y ∈ pc.1.set :=
  View.cover_of_tiledL _ S2048x64.size (by sl_kernel_rfl)

end Point

/-- What point `t` leaves in the output block and the accumulator, over what the point before left in the accumulator:
    the case the point's contraction step selects. -/
def step1 (c : Dev nD) (t : Fin cfg1.N) (xs0 : Vec F S2048x64 .f32) : Vec F S2048x32 .f32 × Vec F S2048x64 .f32 :=
  if h0 : t.val % 16 = 0 then (outIdle1, soutA1 c t (iblk1 V c 0 t) (iblk1 V c 1 t) (iblk1 V c 2 t) h0 (by omega))
  else if h1 : t.val % 16 = 15 then (outC1 c t (iblk1 V c 0 t) (iblk1 V c 1 t) (iblk1 V c 2 t) h0 h1 xs0, soutC1 c t (iblk1 V c 0 t) (iblk1 V c 1 t) (iblk1 V c 2 t) h0 h1 xs0)
  else (outIdle1, soutB1 c t (iblk1 V c 0 t) (iblk1 V c 1 t) (iblk1 V c 2 t) h0 h1 xs0)

/-- The output block and the accumulator after the body at position `n`. -/
def outsAt1 (c : Dev nD) : (n : ℕ) → n < cfg1.N → Vec F S2048x32 .f32 × Vec F S2048x64 .f32
  | 0, hn => step1 V c ⟨0, hn⟩ (VS1_0.read (Elt F) VS1_0.junk)
  | n + 1, hn => step1 V c ⟨n + 1, hn⟩ (outsAt1 c n (Nat.lt_of_succ_lt hn)).2

theorem outsAt1_eq (c : Dev nD) (t : Fin cfg1.N) (h0 : ¬t.val % 16 = 0) : outsAt1 V c t.val t.isLt = step1 V c t (outsAt1 V c (t.val - 1) (Nat.lt_of_le_of_lt (Nat.sub_le _ _) t.isLt)).2 := by
  obtain ⟨n, hn⟩ := t
  cases n with
  | zero => exact absurd (Nat.zero_mod _) h0
  | succ n => rfl

theorem outsAt1_A (c : Dev nD) (t : Fin cfg1.N) (h0 : t.val % 16 = 0) :
    outsAt1 V c t.val t.isLt = (outIdle1, soutA1 c t (iblk1 V c 0 t) (iblk1 V c 1 t) (iblk1 V c 2 t) h0 (by omega)) := by
  obtain ⟨n, hn⟩ := t
  cases n <;> (show step1 V c _ _ = _; exact dif_pos h0)
theorem outsAt1_B (c : Dev nD) (t : Fin cfg1.N) (h0 : ¬t.val % 16 = 0) (h1 : ¬t.val % 16 = 15) :
    outsAt1 V c t.val t.isLt = (outIdle1, soutB1 c t (iblk1 V c 0 t) (iblk1 V c 1 t) (iblk1 V c 2 t) h0 h1 (outsAt1 V c (t.val - 1) (Nat.lt_of_le_of_lt (Nat.sub_le _ _) t.isLt)).2) :=
  (outsAt1_eq V c t h0).trans ((dif_neg h0).trans (dif_neg h1))
theorem outsAt1_C (c : Dev nD) (t : Fin cfg1.N) (h0 : ¬t.val % 16 = 0) (h1 : t.val % 16 = 15) :
    outsAt1 V c t.val t.isLt = (outC1 c t (iblk1 V c 0 t) (iblk1 V c 1 t) (iblk1 V c 2 t) h0 h1 (outsAt1 V c (t.val - 1) (Nat.lt_of_le_of_lt (Nat.sub_le _ _) t.isLt)).2, soutC1 c t (iblk1 V c 0 t) (iblk1 V c 1 t) (iblk1 V c 2 t) h0 h1 (outsAt1 V c (t.val - 1) (Nat.lt_of_le_of_lt (Nat.sub_le _ _) t.isLt)).2) :=
  (outsAt1_eq V c t h0).trans ((dif_neg h0).trans (dif_pos h1))

/-- The accumulator before position `n`: anything before the first point, afterwards what the point before left. -/
def acc1 (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2
theorem acc1_any (c : Dev nD) (n : ℕ) (h : n ≤ cfg1.N) : acc1 V c n h ⊢ iprop(∃ d, owns (c : Thread nD τ) scM1_0 fullShare d) := by
  cases n with
  | zero => exact .rfl
  | succ n => show owns (c : Thread nD τ) scM1_0 fullShare _ ⊢ _; iintro H; iexists _; iexact H
theorem acc1_pos (c : Dev nD) (n : ℕ) (h : n ≤ cfg1.N) (hz : n ≠ 0) :
    acc1 V c n h = owns (c : Thread nD τ) scM1_0 fullShare (outsAt1 V c (n - 1) (by omega)).2 := by
  cases n with
  | zero => exact absurd rfl hz
  | succ n => rfl

/-- The region's invariant before position `n`: the accumulator, the other calls' scoped buffers, the generator register. -/
def PhiS1 (c : Dev nD) (n : ℕ) (h : n ≤ cfg1.N) : sProp 𝕄 :=
  iprop(iprop(acc1 V c n h ∗ others1 (F := F) c) ∗ (∃ r, prngReg c r))

/-- The region's proof data at the entry contents `V`: each input's buffer at its block, the output block and the
    accumulator at `outsAt1`, nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = (outsAt1 V c t.val t.isLt).1 := rfl
/-- An input window's staging buffer holds its block at every point, fetched there or not. -/
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

/-- The body at any point: the point's contraction step says which case it is in; the invariant hands the body the
    accumulator at what the point before left (at anything before the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2]
  rw [show (dat1 V c).owesAt () t.succ = (dat1 V c).owesAt () t.castSucc from rfl,
    show (dat1 V c).Φ t.succ = iprop(iprop(owns (c : Thread nD τ) scM1_0 fullShare (outsAt1 V c t.val t.isLt).2 ∗ others1 (F := F) c) ∗ (∃ r, prngReg c r)) from rfl,
    show (dat1 V c).Φ t.castSucc = iprop(iprop(acc1 V c t.val (Nat.le_of_lt t.isLt) ∗ others1 (F := F) c) ∗ (∃ r, prngReg c r)) from rfl,
    show (dat1 V c).leavesExact 0 t = owns (c : Thread nD τ) (ms1_0 t) fullShare (iblk1 V c 0 t) from by unfold Dat.leavesExact; rw [liveAt1_0 t]; rfl,
    show (dat1 V c).leavesExact 1 t = owns (c : Thread nD τ) (ms1_1 t) fullShare (iblk1 V c 1 t) from by unfold Dat.leavesExact; rw [liveAt1_1 t]; rfl,
    show (dat1 V c).leavesExact 2 t = owns (c : Thread nD τ) (ms1_2 t) fullShare (iblk1 V c 2 t) from by unfold Dat.leavesExact; rw [liveAt1_2 t]; rfl]
  have idle3 := fun h1 : ¬t.val % 16 = 15 => Dat.leavesExact_idle (dat1 V c) 3 t
    (idleAt1_3 t fun h => h1 ((hcond1_1 t).mp h)) (noFlush1_3 t fun h => h1 ((hcond1_1 t).mp h))
  by_cases h0 : t.val % 16 = 0
  · rw [idle3 (by omega), outsAt1_A V c t h0]
    unfold soutA1; dsimp only
    have hrun := fun x K => (runA1 c t (iblk1 V c 0 t) (iblk1 V c 1 t) (iblk1 V c 2 t) h0 (by omega)).2 x Set.univ K
    exact Cert.Lib.body_frame (w := wp frame (wpE (defs₀ (F := F)) Variants.none c none) Set.univ (bodyAt1 t)) ((dat1 V c).before 3 t) hrun (acc1_any V c _ _)
      (Cert.Lib.owns_of_writes (c : Thread nD τ) scM1_0 fullShare _ (scoverA1 c t _ _ _ h0 _)) fun d => by iintro H; iexists d; iexact H
  · rw [acc1_pos V c _ _ fun e => h0 (by rw [e])]
    by_cases h1 : t.val % 16 = 15
    · rw [show (dat1 V c).leavesExact 3 t = owns (c : Thread nD τ) (ms1_3 t) fullShare (outsAt1 V c t.val t.isLt).1 from by
        unfold Dat.leavesExact; rw [liveAt1_3 t ((hcond1_1 t).mpr h1)]; rfl, outsAt1_C V c t h0 h1]
      unfold outC1 soutC1; dsimp only
      have hrun := fun x K => (runC1 c t (iblk1 V c 0 t) (iblk1 V c 1 t) (iblk1 V c 2 t) h0 h1 (outsAt1 V c (t.val - 1) (Nat.lt_of_le_of_lt (Nat.sub_le _ _) t.isLt)).2).2.2 x Set.univ K
      exact Cert.Lib.body_frame (w := wp frame (wpE (defs₀ (F := F)) Variants.none c none) Set.univ (bodyAt1 t)) ((dat1 V c).before 3 t) hrun .rfl
        (Cert.Lib.owns_of_writes (c : Thread nD τ) scM1_0 fullShare _ (scoverC1 c t _ _ _ h0 h1 _)) fun _ => Cert.Lib.owns_of_writes (c : Thread nD τ) (ms1_3 t) fullShare _ (coverC1 c t _ _ _ h0 h1 _)
    · rw [idle3 h1, outsAt1_B V c t h0 h1]
      unfold soutB1; dsimp only
      have hrun := fun x K => (runB1 c t (iblk1 V c 0 t) (iblk1 V c 1 t) (iblk1 V c 2 t) h0 h1 (outsAt1 V c (t.val - 1) (Nat.lt_of_le_of_lt (Nat.sub_le _ _) t.isLt)).2).2 x Set.univ K
      exact Cert.Lib.body_frame (w := wp frame (wpE (defs₀ (F := F)) Variants.none c none) Set.univ (bodyAt1 t)) ((dat1 V c).before 3 t) hrun .rfl
        (Cert.Lib.owns_of_writes (c : Thread nD τ) scM1_0 fullShare _ (scoverB1 c t _ _ _ h0 h1 _)) fun d => by iintro H; iexists d; iexact H

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [PhiA1_eq]; exact .rfl

/-- After the last point the accumulator's contents are forgotten. -/
theorem hout1 (c : Dev nD) : (dat1 V c).Φ (Fin.last cfg1.N) ⊢ Pipeline.ΦA spec1 c := by
  rw [PhiA1_eq]; exact sep_mono (sep_mono (acc1_any V c _ _) .rfl) .rfl

end Cert.Kernel.Hand

end
-- ==== Proof.K.R2Runs.lean ====
import proofs.«141569_j26164940767949_1_alg».proof.Proof.Gen.Kernel.Launch
import proofs.«141569_j26164940767949_1_alg».proof.Proof.Gen.Kernel.Skeleton
import proofs.«141569_j26164940767949_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
/-- Point t = 16·i + k is row block i at contraction step k: the accumulator is reset exactly when k = 0. -/
theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1
/-- The output block is computed and stored exactly at the last contraction step, k = 15. -/
theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

abbrev VO2_3 : View sig .tc .vmem S2048x32 .f32 := (Memref.whole cc2_stg3_0 : Memref sig .tc .vmem S2048x32 .f32).view
abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x32 .f32 := win2_3.stage (cfg2.slots t 3)
abbrev hs2_3 (t : Fin cfg2.N) : (ms2_3 t).IsWhole := hstage2_3 ((cfg2.slots t 3).cast nbuf2_3)
abbrev scM2_0 : Memref sig .tc .vmem S2048x32 .f32 := Memref.whole cc2_scratch0
abbrev VS2_0 : View sig .tc .vmem S2048x32 .f32 := scM2_0.view

/-- Every scoped buffer that is neither a staging buffer of this call nor its accumulator: this region never touches them. -/
def others2 (c : Dev nD) : sProp 𝕄 :=
  Pipeline.scopedRestBut (Ix := Unit) (Name := ℕ) (U := UR sig nD τ) (Lvl := ℕ) (Val := Elt F) spec2 c [cc2_scratch0]

/-- The region's invariant before its first point, with the accumulator split off the scoped rest. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA others2
  rw [Pipeline.scopedRest_split_of_list spec2 c [cc2_scratch0] (by decide) (by decide)]
  simp only [scM2_0, owns_whole, bigSepL_singleton]; try rfl

end Cert.Kernel.Hand

end
-- ==== Proof.K.R2Cases.lean ====
import proofs.«141569_j26164940767949_1_alg».proof.Proof.K.R2Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S2048x1024 .f32) (harg2 : arg2.IsWhole) (arg3 : Memref sig .tc .vmem S1024x32 .f32) (harg3 : arg3.IsWhole) (arg4 : Memref sig .tc .vmem S32x32 .f32) (harg4 : arg4.IsWhole) (arg5 : Memref sig .tc .vmem S2048x32 .f32) (harg5 : arg5.IsWhole) (arg6 : Memref sig .tc .vmem S2048x32 .f32) (harg6 : arg6.IsWhole)
  (x0 : Vec F S2048x1024 .f32) (x1 : Vec F S1024x32 .f32) (x2 : Vec F S32x32 .f32)

/-- Contraction step 0: the accumulator is stored whole twice (the zero splat, then zero plus the step's block product), so
    what it held before does not matter; the output block is untouched. -/
noncomputable def kernelRun2_A (hc0 : cond2_0 i) (hc1 : ¬cond2_1 i) :
    { LS0 : List (View.Piece (Elt F) S2048x32 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_kernel i arg2 harg2 arg3 harg3 arg4 harg4 arg5 harg5 arg6 harg6) K } := by
  refine ⟨?_, fun xi3 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- A contraction step strictly between the first and the last: the accumulator is stored whole once (what it held plus the
    step's block product); the output block is untouched. -/
noncomputable def kernelRun2_B (hc0 : ¬cond2_0 i) (hc1 : ¬cond2_1 i) (xs0 : Vec F S2048x32 .f32) :
    { LS0 : List (View.Piece (Elt F) S2048x32 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_kernel i arg2 harg2 arg3 harg3 arg4 harg4 arg5 harg5 arg6 harg6) K } := by
  refine ⟨?_, fun xi3 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Contraction step 15: the accumulator is stored whole once (what it held plus the step's block product) and read back,
    and the output block is stored whole from it and the weights. -/
noncomputable def kernelRun2_C (hc0 : ¬cond2_0 i) (hc1 : cond2_1 i) (xs0 : Vec F S2048x32 .f32) :
    Σ' (L3 : List (View.Piece (Elt F) S2048x32 .f32)), { LS0 : List (View.Piece (Elt F) S2048x32 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_kernel i arg2 harg2 arg3 harg3 arg4 harg4 arg5 harg5 arg6 harg6) K } := by
  refine ⟨?_, ?_, fun xi3 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R2Body.lean ====
import proofs.«141569_j26164940767949_1_alg».proof.Proof.K.R2Cases
import proofs.«141569_j26164940767949_1_alg».proof.Proof.LibFrame

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A placeholder for the output block where no case stores into it: nothing consults it. -/
def outIdle2 : Vec F S2048x32 .f32 := VO2_3.read (Elt F) (VO2_3.writes (Elt F) VO2_3.junk [])

section Point

variable (c : Dev nD) (t : Fin cfg2.N) (x0 : Vec F S2048x1024 .f32) (x1 : Vec F S1024x32 .f32) (x2 : Vec F S32x32 .f32)

abbrev runA2 (h0 : t.val % 16 = 0) (h1 : ¬t.val % 16 = 15) :=
  kernelRun2_A c (grid2.coords t) (ms2_0 t) (hs2_0 t) (ms2_1 t) (hs2_1 t) (ms2_2 t) (hs2_2 t) (ms2_3 t) (hs2_3 t) scM2_0 (Memref.isWhole_whole _) x0 x1 x2 ((hcond2_0 t).mpr h0) (fun h => h1 ((hcond2_1 t).mp h))
abbrev runB2 (h0 : ¬t.val % 16 = 0) (h1 : ¬t.val % 16 = 15) (xs0 : Vec F S2048x32 .f32) :=
  kernelRun2_B c (grid2.coords t) (ms2_0 t) (hs2_0 t) (ms2_1 t) (hs2_1 t) (ms2_2 t) (hs2_2 t) (ms2_3 t) (hs2_3 t) scM2_0 (Memref.isWhole_whole _) x0 x1 x2 (fun h => h0 ((hcond2_0 t).mp h)) (fun h => h1 ((hcond2_1 t).mp h)) xs0
abbrev runC2 (h0 : ¬t.val % 16 = 0) (h1 : t.val % 16 = 15) (xs0 : Vec F S2048x32 .f32) :=
  kernelRun2_C c (grid2.coords t) (ms2_0 t) (hs2_0 t) (ms2_1 t) (hs2_1 t) (ms2_2 t) (hs2_2 t) (ms2_3 t) (hs2_3 t) scM2_0 (Memref.isWhole_whole _) x0 x1 x2 (fun h => h0 ((hcond2_0 t).mp h)) ((hcond2_1 t).mpr h1) xs0

/-- The accumulator after contraction step 0. -/
def soutA2 (h0 : t.val % 16 = 0) (h1 : ¬t.val % 16 = 15) : Vec F S2048x32 .f32 :=
  VS2_0.read (Elt F) (VS2_0.writes (Elt F) VS2_0.junk (runA2 c t x0 x1 x2 h0 h1).1)
theorem scoverA2 (h0 : t.val % 16 = 0) (h1 : ¬t.val % 16 = 15) : ∀ y, ∃ pc ∈ (runA2 c t x0 x1 x2 h0 h1).1, y ∈ pc.1.set :=
  View.cover_of_tiledL _ S2048x32.size (by sl_kernel_rfl)

/-- The accumulator after a middle contraction step, over what the step before left (`xs0`). -/
def soutB2 (h0 : ¬t.val % 16 = 0) (h1 : ¬t.val % 16 = 15) (xs0 : Vec F S2048x32 .f32) : Vec F S2048x32 .f32 :=
  VS2_0.read (Elt F) (VS2_0.writes (Elt F) VS2_0.junk (runB2 c t x0 x1 x2 h0 h1 xs0).1)
theorem scoverB2 (h0 : ¬t.val % 16 = 0) (h1 : ¬t.val % 16 = 15) (xs0 : Vec F S2048x32 .f32) : ∀ y, ∃ pc ∈ (runB2 c t x0 x1 x2 h0 h1 xs0).1, y ∈ pc.1.set :=
  View.cover_of_tiledL _ S2048x32.size (by sl_kernel_rfl)

/-- The output block and the accumulator after the last contraction step. -/
def outC2 (h0 : ¬t.val % 16 = 0) (h1 : t.val % 16 = 15) (xs0 : Vec F S2048x32 .f32) : Vec F S2048x32 .f32 :=
  VO2_3.read (Elt F) (VO2_3.writes (Elt F) VO2_3.junk (runC2 c t x0 x1 x2 h0 h1 xs0).1)
def soutC2 (h0 : ¬t.val % 16 = 0) (h1 : t.val % 16 = 15) (xs0 : Vec F S2048x32 .f32) : Vec F S2048x32 .f32 :=
  VS2_0.read (Elt F) (VS2_0.writes (Elt F) VS2_0.junk (runC2 c t x0 x1 x2 h0 h1 xs0).2.1)
theorem coverC2 (h0 : ¬t.val % 16 = 0) (h1 : t.val % 16 = 15) (xs0 : Vec F S2048x32 .f32) : ∀ y, ∃ pc ∈ (runC2 c t x0 x1 x2 h0 h1 xs0).1, y ∈ pc.1.set :=
  View.cover_of_tiledL _ S2048x32.size (by sl_kernel_rfl)
theorem scoverC2 (h0 : ¬t.val % 16 = 0) (h1 : t.val % 16 = 15) (xs0 : Vec F S2048x32 .f32) : ∀ y, ∃ pc ∈ (runC2 c t x0 x1 x2 h0 h1 xs0).2.1, y ∈ pc.1.set :=
  View.cover_of_tiledL _ S2048x32.size (by sl_kernel_rfl)

end Point

/-- What point `t` leaves in the output block and the accumulator, over what the point before left in the accumulator:
    the case the point's contraction step selects. -/
def step2 (c : Dev nD) (t : Fin cfg2.N) (xs0 : Vec F S2048x32 .f32) : Vec F S2048x32 .f32 × Vec F S2048x32 .f32 :=
  if h0 : t.val % 16 = 0 then (outIdle2, soutA2 c t (iblk2 V c 0 t) (iblk2 V c 1 t) (iblk2 V c 2 t) h0 (by omega))
  else if h1 : t.val % 16 = 15 then (outC2 c t (iblk2 V c 0 t) (iblk2 V c 1 t) (iblk2 V c 2 t) h0 h1 xs0, soutC2 c t (iblk2 V c 0 t) (iblk2 V c 1 t) (iblk2 V c 2 t) h0 h1 xs0)
  else (outIdle2, soutB2 c t (iblk2 V c 0 t) (iblk2 V c 1 t) (iblk2 V c 2 t) h0 h1 xs0)

/-- The output block and the accumulator after the body at position `n`. -/
def outsAt2 (c : Dev nD) : (n : ℕ) → n < cfg2.N → Vec F S2048x32 .f32 × Vec F S2048x32 .f32
  | 0, hn => step2 V c ⟨0, hn⟩ (VS2_0.read (Elt F) VS2_0.junk)
  | n + 1, hn => step2 V c ⟨n + 1, hn⟩ (outsAt2 c n (Nat.lt_of_succ_lt hn)).2

theorem outsAt2_eq (c : Dev nD) (t : Fin cfg2.N) (h0 : ¬t.val % 16 = 0) : outsAt2 V c t.val t.isLt = step2 V c t (outsAt2 V c (t.val - 1) (Nat.lt_of_le_of_lt (Nat.sub_le _ _) t.isLt)).2 := by
  obtain ⟨n, hn⟩ := t
  cases n with
  | zero => exact absurd (Nat.zero_mod _) h0
  | succ n => rfl

theorem outsAt2_A (c : Dev nD) (t : Fin cfg2.N) (h0 : t.val % 16 = 0) :
    outsAt2 V c t.val t.isLt = (outIdle2, soutA2 c t (iblk2 V c 0 t) (iblk2 V c 1 t) (iblk2 V c 2 t) h0 (by omega)) := by
  obtain ⟨n, hn⟩ := t
  cases n <;> (show step2 V c _ _ = _; exact dif_pos h0)
theorem outsAt2_B (c : Dev nD) (t : Fin cfg2.N) (h0 : ¬t.val % 16 = 0) (h1 : ¬t.val % 16 = 15) :
    outsAt2 V c t.val t.isLt = (outIdle2, soutB2 c t (iblk2 V c 0 t) (iblk2 V c 1 t) (iblk2 V c 2 t) h0 h1 (outsAt2 V c (t.val - 1) (Nat.lt_of_le_of_lt (Nat.sub_le _ _) t.isLt)).2) :=
  (outsAt2_eq V c t h0).trans ((dif_neg h0).trans (dif_neg h1))
theorem outsAt2_C (c : Dev nD) (t : Fin cfg2.N) (h0 : ¬t.val % 16 = 0) (h1 : t.val % 16 = 15) :
    outsAt2 V c t.val t.isLt = (outC2 c t (iblk2 V c 0 t) (iblk2 V c 1 t) (iblk2 V c 2 t) h0 h1 (outsAt2 V c (t.val - 1) (Nat.lt_of_le_of_lt (Nat.sub_le _ _) t.isLt)).2, soutC2 c t (iblk2 V c 0 t) (iblk2 V c 1 t) (iblk2 V c 2 t) h0 h1 (outsAt2 V c (t.val - 1) (Nat.lt_of_le_of_lt (Nat.sub_le _ _) t.isLt)).2) :=
  (outsAt2_eq V c t h0).trans ((dif_neg h0).trans (dif_pos h1))

/-- The accumulator before position `n`: anything before the first point, afterwards what the point before left. -/
def acc2 (c : Dev nD) : (n : ℕ) → n ≤ cfg2.N → sProp 𝕄
  | 0, _ => iprop(∃ d, owns (c : Thread nD τ) scM2_0 fullShare d)
  | n + 1, hn => owns (c : Thread nD τ) scM2_0 fullShare (outsAt2 V c n hn).2
theorem acc2_any (c : Dev nD) (n : ℕ) (h : n ≤ cfg2.N) : acc2 V c n h ⊢ iprop(∃ d, owns (c : Thread nD τ) scM2_0 fullShare d) := by
  cases n with
  | zero => exact .rfl
  | succ n => show owns (c : Thread nD τ) scM2_0 fullShare _ ⊢ _; iintro H; iexists _; iexact H
theorem acc2_pos (c : Dev nD) (n : ℕ) (h : n ≤ cfg2.N) (hz : n ≠ 0) :
    acc2 V c n h = owns (c : Thread nD τ) scM2_0 fullShare (outsAt2 V c (n - 1) (by omega)).2 := by
  cases n with
  | zero => exact absurd rfl hz
  | succ n => rfl

/-- The region's invariant before position `n`: the accumulator, the other calls' scoped buffers, the generator register. -/
def PhiS2 (c : Dev nD) (n : ℕ) (h : n ≤ cfg2.N) : sProp 𝕄 :=
  iprop(iprop(acc2 V c n h ∗ others2 (F := F) c) ∗ (∃ r, prngReg c r))

/-- The region's proof data at the entry contents `V`: each input's buffer at its block, the output block and the
    accumulator at `outsAt2`, nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = (outsAt2 V c t.val t.isLt).1 := rfl
/-- An input window's staging buffer holds its block at every point, fetched there or not. -/
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

/-- The body at any point: the point's contraction step says which case it is in; the invariant hands the body the
    accumulator at what the point before left (at anything before the first point) and takes it back at this point's. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1, before2_2]
  rw [show (dat2 V c).owesAt () t.succ = (dat2 V c).owesAt () t.castSucc from rfl,
    show (dat2 V c).Φ t.succ = iprop(iprop(owns (c : Thread nD τ) scM2_0 fullShare (outsAt2 V c t.val t.isLt).2 ∗ others2 (F := F) c) ∗ (∃ r, prngReg c r)) from rfl,
    show (dat2 V c).Φ t.castSucc = iprop(iprop(acc2 V c t.val (Nat.le_of_lt t.isLt) ∗ others2 (F := F) c) ∗ (∃ r, prngReg c r)) from rfl,
    show (dat2 V c).leavesExact 0 t = owns (c : Thread nD τ) (ms2_0 t) fullShare (iblk2 V c 0 t) from by unfold Dat.leavesExact; rw [liveAt2_0 t]; rfl,
    show (dat2 V c).leavesExact 1 t = owns (c : Thread nD τ) (ms2_1 t) fullShare (iblk2 V c 1 t) from by unfold Dat.leavesExact; rw [liveAt2_1 t]; rfl,
    show (dat2 V c).leavesExact 2 t = owns (c : Thread nD τ) (ms2_2 t) fullShare (iblk2 V c 2 t) from by unfold Dat.leavesExact; rw [liveAt2_2 t]; rfl]
  have idle3 := fun h1 : ¬t.val % 16 = 15 => Dat.leavesExact_idle (dat2 V c) 3 t
    (idleAt2_3 t fun h => h1 ((hcond2_1 t).mp h)) (noFlush2_3 t fun h => h1 ((hcond2_1 t).mp h))
  by_cases h0 : t.val % 16 = 0
  · rw [idle3 (by omega), outsAt2_A V c t h0]
    unfold soutA2; dsimp only
    have hrun := fun x K => (runA2 c t (iblk2 V c 0 t) (iblk2 V c 1 t) (iblk2 V c 2 t) h0 (by omega)).2 x Set.univ K
    exact Cert.Lib.body_frame (w := wp frame (wpE (defs₀ (F := F)) Variants.none c none) Set.univ (bodyAt2 t)) ((dat2 V c).before 3 t) hrun (acc2_any V c _ _)
      (Cert.Lib.owns_of_writes (c : Thread nD τ) scM2_0 fullShare _ (scoverA2 c t _ _ _ h0 _)) fun d => by iintro H; iexists d; iexact H
  · rw [acc2_pos V c _ _ fun e => h0 (by rw [e])]
    by_cases h1 : t.val % 16 = 15
    · rw [show (dat2 V c).leavesExact 3 t = owns (c : Thread nD τ) (ms2_3 t) fullShare (outsAt2 V c t.val t.isLt).1 from by
        unfold Dat.leavesExact; rw [liveAt2_3 t ((hcond2_1 t).mpr h1)]; rfl, outsAt2_C V c t h0 h1]
      unfold outC2 soutC2; dsimp only
      have hrun := fun x K => (runC2 c t (iblk2 V c 0 t) (iblk2 V c 1 t) (iblk2 V c 2 t) h0 h1 (outsAt2 V c (t.val - 1) (Nat.lt_of_le_of_lt (Nat.sub_le _ _) t.isLt)).2).2.2 x Set.univ K
      exact Cert.Lib.body_frame (w := wp frame (wpE (defs₀ (F := F)) Variants.none c none) Set.univ (bodyAt2 t)) ((dat2 V c).before 3 t) hrun .rfl
        (Cert.Lib.owns_of_writes (c : Thread nD τ) scM2_0 fullShare _ (scoverC2 c t _ _ _ h0 h1 _)) fun _ => Cert.Lib.owns_of_writes (c : Thread nD τ) (ms2_3 t) fullShare _ (coverC2 c t _ _ _ h0 h1 _)
    · rw [idle3 h1, outsAt2_B V c t h0 h1]
      unfold soutB2; dsimp only
      have hrun := fun x K => (runB2 c t (iblk2 V c 0 t) (iblk2 V c 1 t) (iblk2 V c 2 t) h0 h1 (outsAt2 V c (t.val - 1) (Nat.lt_of_le_of_lt (Nat.sub_le _ _) t.isLt)).2).2 x Set.univ K
      exact Cert.Lib.body_frame (w := wp frame (wpE (defs₀ (F := F)) Variants.none c none) Set.univ (bodyAt2 t)) ((dat2 V c).before 3 t) hrun .rfl
        (Cert.Lib.owns_of_writes (c : Thread nD τ) scM2_0 fullShare _ (scoverB2 c t _ _ _ h0 h1 _)) fun d => by iintro H; iexists d; iexact H

theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [PhiA2_eq]; exact .rfl

/-- After the last point the accumulator's contents are forgotten. -/
theorem hout2 (c : Dev nD) : (dat2 V c).Φ (Fin.last cfg2.N) ⊢ Pipeline.ΦA spec2 c := by
  rw [PhiA2_eq]; exact sep_mono (sep_mono (acc2_any V c _ _) .rfl) .rfl

end Cert.Kernel.Hand

end
-- ==== Proof.K.Run.lean ====
import proofs.«141569_j26164940767949_1_alg».proof.Proof.K.R0Body
import proofs.«141569_j26164940767949_1_alg».proof.Proof.K.R1Body
import proofs.«141569_j26164940767949_1_alg».proof.Proof.K.R2Body
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)
abbrev E0 : (c : Dev nD) → (b : Ref sig .tc) → Buf (Elt F) ((c : Thread nD τ).loc b) := fun c b => W0 m c b

/-- The core's buffers at region 0's exit: its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (E0 m) c).arrAt_in w hw _).trans (A_eq0 (E0 m) c w))

def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

theorem W2_in (c : Dev nD) (w : Fin cfg1.W) (hw : (cfg1.win w).isOut = false) :
    W2 m c (Proc.devRef .tc (Pipeline.arrRef spec1 w)) = W1 m c (Proc.devRef .tc (Pipeline.arrRef spec1 w)) :=
  (W2_arr m c w).trans (((dat1 (E1 m) c).arrAt_in w hw _).trans (A_eq1 (E1 m) c w))

def W3 (c : Dev nD) : Valuation τ sig (Elt F) :=
  Pipeline.withArrays spec2 c (W2 m c) fun w => (dat2 (E2 m) c).arrAt w cfg2.N
theorem W3_arr (c : Dev nD) (w : Fin cfg2.W) :
    W3 m c (Proc.devRef .tc (Pipeline.arrRef spec2 w)) = (dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb

abbrev E3 : (c : Dev nD) → (b : Ref sig .tc) → Buf (Elt F) ((c : Thread nD τ).loc b) := fun c b => W3 m c b
theorem hF2 (c : Dev nD) (w : Fin cfg2.W) : (dat2 (E2 m) c).arrAt w cfg2.N = E3 m c (Pipeline.arrRef spec2 w) :=
  (W3_arr m c w).symm
theorem hrest2 (c : Dev nD) : ∀ b, b ∉ Finset.univ.image (Pipeline.arrRef spec2) → E3 m c b = E2 m c b :=
  fun b hb => W3_of_ne m c b fun w e => hb (Finset.mem_image.mpr ⟨w, Finset.mem_univ _, e⟩)

theorem W3_in (c : Dev nD) (w : Fin cfg2.W) (hw : (cfg2.win w).isOut = false) :
    W3 m c (Proc.devRef .tc (Pipeline.arrRef spec2 w)) = W2 m c (Proc.devRef .tc (Pipeline.arrRef spec2 w)) :=
  (W3_arr m c w).trans (((dat2 (E2 m) c).arrAt_in w hw _).trans (A_eq2 (E2 m) c w))

theorem W3_main_arg0 (c : Dev nD) : W3 m c (Proc.devRef .tc main_arg0) = m ((c : Thread nD τ).loc main_arg0) :=
  ((W3_in m c 0 rfl)).trans (((W2_in m c 0 rfl)).trans ((W1_in m c 0 rfl)))
theorem W3_main_arg1 (c : Dev nD) : W3 m c (Proc.devRef .tc main_arg1) = m ((c : Thread nD τ).loc main_arg1) :=
  ((W3_of_ne m c main_arg1 (by decide))).trans (((W2_of_ne m c main_arg1 (by decide))).trans ((W1_in m c 1 rfl)))
theorem W3_main_arg2 (c : Dev nD) : W3 m c (Proc.devRef .tc main_arg2) = m ((c : Thread nD τ).loc main_arg2) :=
  ((W3_of_ne m c main_arg2 (by decide))).trans (((W2_of_ne m c main_arg2 (by decide))).trans ((W1_in m c 2 rfl)))
theorem W3_main_arg3 (c : Dev nD) : W3 m c (Proc.devRef .tc main_arg3) = m ((c : Thread nD τ).loc main_arg3) :=
  ((W3_of_ne m c main_arg3 (by decide))).trans (((W2_in m c 2 rfl)).trans ((W1_of_ne m c main_arg3 (by decide))))
theorem W3_main_arg4 (c : Dev nD) : W3 m c (Proc.devRef .tc main_arg4) = m ((c : Thread nD τ).loc main_arg4) :=
  ((W3_in m c 2 rfl)).trans (((W2_of_ne m c main_arg4 (by decide))).trans ((W1_of_ne m c main_arg4 (by decide))))
theorem W3_main_v2 (c : Dev nD) : W3 m c (Proc.devRef .tc main_v2) = (dat2 (E2 m) c).arrAt 3 cfg2.N := W3_arr m c 3

theorem E1_main_v0 (c : Dev nD) : E1 m c main_v0 = (dat0 (E0 m) c).arrAt 3 cfg0.N := W1_arr m c 3
theorem E2_main_v1 (c : Dev nD) : E2 m c main_v1 = (dat1 (E1 m) c).arrAt 3 cfg1.N := W2_arr m c 3
theorem E1_main_arg0 (c : Dev nD) : E1 m c main_arg0 = m ((c : Thread nD τ).loc main_arg0) := W1_in m c 0 rfl
theorem E2_main_arg0 (c : Dev nD) : E2 m c main_arg0 = m ((c : Thread nD τ).loc main_arg0) := (W2_in m c 0 rfl).trans (W1_in m c 0 rfl)
theorem E1_main_arg3 (c : Dev nD) : E1 m c main_arg3 = m ((c : Thread nD τ).loc main_arg3) := W1_of_ne m c main_arg3 (by decide)
theorem E2_main_arg4 (c : Dev nD) : E2 m c main_arg4 = m ((c : Thread nD τ).loc main_arg4) := (W2_of_ne m c main_arg4 (by decide)).trans (W1_of_ne m c main_arg4 (by decide))

abbrev adm : (p : Fin 3) → (pcfgs (F := F) p).Adm := fun p => (cfgs p).toPCfg_adm

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W3 m c) ∗ ∃ r, prngReg c r)

set_option backward.isDefEq.respectTransparency.types false in
/-- Region `p` as a segment, entered with every unscoped buffer at `V` and left with them at `V'`: its arrays are split out
    of the unscoped buffers at entry and put back at the exit contents; the generator register and the scoped rest go
    into the region's invariant and come back out; nothing is owed. -/
def mkReg (p : Fin 3) (launch : Pipeline.LaunchFacts (nD := nD) (τ := τ) cfgs p) (V V' : Dev nD → Valuation τ sig (Elt F))
    (hbody : ∀ c, BodyObligation (pdats m p c) (defs₀ (F := F)) 𝒱₀ () Set.univ)
    (hq : ∀ c w, (pdats m p c).q w = fullShare) (howed : ∀ c t, (pdats m p c).owed t = 0) (hrec : ∀ c t, (pdats m p c).recorded t = Set.univ)
    (hA : ∀ c w, (pdats m p c).A w = V c (Pipeline.arrRef (cfgs p).spec w))
    (hin : ∀ c, Pipeline.ΦA (cfgs p).spec c ⊢ (pdats m p c).Φ 0)
    (hout : ∀ c, (pdats m p c).Φ (Fin.last _) ⊢ Pipeline.ΦA (cfgs p).spec c)
    (hF : ∀ c w, (pdats m p c).arrAt w (cfgs p).N = V' c (Pipeline.arrRef (cfgs p).spec w))
    (hrest : ∀ c, ∀ b, b ∉ Finset.univ.image (Pipeline.arrRef (cfgs p).spec) → V' c (Proc.devRef .tc b) = V c (Proc.devRef .tc b))
    (post : Dev nD → sProp 𝕄) (hpost : ∀ c : Dev nD, iprop(StableHlo.held (c : Thread nD τ) (Pipeline.ucRefs τ sig) (V' c) ∗ R c) ⊢ post c) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm (pdats m) launch.win launch.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    have h := hout c
    unfold Pipeline.ΦA at h
    rw [Pipeline.ownSems0_none]
    iintro Hphi
    ihave H := h $$ Hphi
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => V c b) (fun b => V' c b) ((pdats m p c).arrAt · (cfgs p).N) (hF c) (hrest c)
    rw [Pipeline.unscopedBufs_held] at hjoin
    iintro ⟨Ha, HO, HY, Hrest⟩
    imodintro
    iapply hpost c
    isplitl [Ha Hrest]
    · iapply hjoin; isplitl [Ha] <;> iassumption
    isplitl [HY]; · iexact HY
    unfold Pipeline.Dat.owesAt Pipeline.owesWithin
    rw [howed c _]
    icases HO with ⟨%W, -, HO⟩; iexists W; iexact HO

def reg0 := mkReg m 0 launch0 (W0 m) (W1 m) (body_obligation0 (E0 m)) (fun _ _ => rfl) (fun _ _ => rfl) (fun _ _ => rfl) (fun _ _ => rfl)
  (hin0 (E0 m)) (hout0 (E0 m)) (hF0 m) (hrest0 m) _ fun _ => .rfl
def reg1 := mkReg m 1 launch1 (W1 m) (W2 m) (body_obligation1 (E1 m)) (fun _ _ => rfl) (fun _ _ => rfl) (fun _ _ => rfl) (fun _ _ => rfl)
  (hin1 (E1 m)) (hout1 (E1 m)) (hF1 m) (hrest1 m) _ fun _ => .rfl
def reg2 := mkReg m 2 launch2 (W2 m) (W3 m) (body_obligation2 (E2 m)) (fun _ _ => rfl) (fun _ _ => rfl) (fun _ _ => rfl) (fun _ _ => rfl)
  (hin2 (E2 m)) (hout2 (E2 m)) (hF2 m) (hrest2 m) (fun c => iprop(Tₙ m c ∗ ∃ W, owes (c : Thread nD τ) (0 : CellTallies nD τ sig Unit) W)) fun c => by
    iintro ⟨Hh, Hp, HO⟩
    isplitl [Hh Hp]
    · isplitl [Hh]; · iexact Hh
      iexact Hp
    iexact HO

abbrev segs : List (Pipeline.Seg (pcfgs (F := F)) adm (pdats m) () defs₀ 𝒱₀ L lv) :=
  [ .region (reg0 m), .region (reg1 m), .region (reg2 m) ]

set_option backward.isDefEq.respectTransparency.types false in

/-- From any memory with zero counters every weakly fair execution terminates, nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) (reg2 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the result named: the result array ends at what the third region's write-backs leave, and every argument array ends as launched. -/
theorem run_result : θ_run defs (onTc (τ := τ) (main (F := F))) ⟨m, fun _ => 0, ρ⟩ (fun r => ∀ c : Dev nD,
      r.2.mem ((c.tc : Thread nD τ).loc main_v2) = (dat2 (E2 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Hand

end
-- ==== Proof.KI.R0Runs.lean ====
import proofs.«141569_j26164940767949_1_alg».proof.Proof.Gen.KernelIdeal.Launch
import proofs.«141569_j26164940767949_1_alg».proof.Proof.Gen.KernelIdeal.Skeleton
import proofs.«141569_j26164940767949_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
/-- Point t = 16·i + k is row block i at contraction step k: the accumulator is reset exactly when k = 0. -/
theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1
/-- The output block is computed and stored exactly at the last contraction step, k = 15. -/
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev VO0_3 : View sig .tc .vmem S2048x64 .f32 := (Memref.whole cc0_stg3_0 : Memref sig .tc .vmem S2048x64 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
abbrev scM0_0 : Memref sig .tc .vmem S2048x64 .f32 := Memref.whole cc0_scratch0
abbrev VS0_0 : View sig .tc .vmem S2048x64 .f32 := scM0_0.view

/-- Every scoped buffer that is neither a staging buffer of this call nor its accumulator: this region never touches them. -/
def others0 (c : Dev nD) : sProp 𝕄 :=
  Pipeline.scopedRestBut (Ix := Unit) (Name := ℕ) (U := UR sig nD τ) (Lvl := ℕ) (Val := Elt F) spec0 c [cc0_scratch0]

/-- The region's invariant before its first point, with the accumulator split off the scoped rest. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0
  rw [Pipeline.scopedRest_split_of_list spec0 c [cc0_scratch0] (by decide) (by decide)]
  simp only [scM0_0, owns_whole, bigSepL_singleton]; try rfl

end Cert.KernelIdeal.Hand

end
-- ==== Proof.KI.R0Cases.lean ====
import proofs.«141569_j26164940767949_1_alg».proof.Proof.KI.R0Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole)
  (x0 : Vec F S2048x1024 .f32) (x1 : Vec F S1024x64 .f32) (x2 : Vec F S64x64 .f32)

/-- Contraction step 0: the accumulator is stored whole twice (the zero splat, then zero plus the step's block product), so
    what it held before does not matter; the output block is untouched. -/
noncomputable def kernelRun0_A (hc0 : cond0_0 i) (hc1 : ¬cond0_1 i) :
    { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_kernel i arg2 harg2 arg3 harg3 arg4 harg4 arg5 harg5 arg6 harg6) K } := by
  refine ⟨?_, fun xi3 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- A contraction step strictly between the first and the last: the accumulator is stored whole once (what it held plus the
    step's block product); the output block is untouched. -/
noncomputable def kernelRun0_B (hc0 : ¬cond0_0 i) (hc1 : ¬cond0_1 i) (xs0 : Vec F S2048x64 .f32) :
    { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_kernel i arg2 harg2 arg3 harg3 arg4 harg4 arg5 harg5 arg6 harg6) K } := by
  refine ⟨?_, fun xi3 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Contraction step 15: the accumulator is stored whole once (what it held plus the step's block product) and read back,
    and the output block is stored whole from it and the weights. -/
noncomputable def kernelRun0_C (hc0 : ¬cond0_0 i) (hc1 : cond0_1 i) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_kernel i arg2 harg2 arg3 harg3 arg4 harg4 arg5 harg5 arg6 harg6) K } := by
  refine ⟨?_, ?_, fun xi3 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R0Body.lean ====
import proofs.«141569_j26164940767949_1_alg».proof.Proof.KI.R0Cases
import proofs.«141569_j26164940767949_1_alg».proof.Proof.LibFrame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A placeholder for the output block where no case stores into it: nothing consults it. -/
def outIdle0 : Vec F S2048x64 .f32 := VO0_3.read (Elt F) (VO0_3.writes (Elt F) VO0_3.junk [])

section Point

variable (c : Dev nD) (t : Fin cfg0.N) (x0 : Vec F S2048x1024 .f32) (x1 : Vec F S1024x64 .f32) (x2 : Vec F S64x64 .f32)

abbrev runA0 (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) scM0_0 (Memref.isWhole_whole _) x0 x1 x2 ((hcond0_0 t).mpr h0) (fun h => h1 ((hcond0_1 t).mp h))
abbrev runB0 (h0 : ¬t.val % 16 = 0) (h1 : ¬t.val % 16 = 15) (xs0 : Vec F S2048x64 .f32) :=
  kernelRun0_B c (grid0.coords t) (ms0_0 t) (hs0_0 t) (ms0_1 t) (hs0_1 t) (ms0_2 t) (hs0_2 t) (ms0_3 t) (hs0_3 t) scM0_0 (Memref.isWhole_whole _) x0 x1 x2 (fun h => h0 ((hcond0_0 t).mp h)) (fun h => h1 ((hcond0_1 t).mp h)) xs0
abbrev runC0 (h0 : ¬t.val % 16 = 0) (h1 : t.val % 16 = 15) (xs0 : Vec F S2048x64 .f32) :=
  kernelRun0_C c (grid0.coords t) (ms0_0 t) (hs0_0 t) (ms0_1 t) (hs0_1 t) (ms0_2 t) (hs0_2 t) (ms0_3 t) (hs0_3 t) scM0_0 (Memref.isWhole_whole _) x0 x1 x2 (fun h => h0 ((hcond0_0 t).mp h)) ((hcond0_1 t).mpr h1) xs0

/-- The accumulator after contraction step 0. -/
def soutA0 (h0 : t.val % 16 = 0) (h1 : ¬t.val % 16 = 15) : Vec F S2048x64 .f32 :=
  VS0_0.read (Elt F) (VS0_0.writes (Elt F) VS0_0.junk (runA0 c t x0 x1 x2 h0 h1).1)
theorem scoverA0 (h0 : t.val % 16 = 0) (h1 : ¬t.val % 16 = 15) : ∀ y, ∃ pc ∈ (runA0 c t x0 x1 x2 h0 h1).1, y ∈ pc.1.set :=
  View.cover_of_tiledL _ S2048x64.size (by sl_kernel_rfl)

/-- The accumulator after a middle contraction step, over what the step before left (`xs0`). -/
def soutB0 (h0 : ¬t.val % 16 = 0) (h1 : ¬t.val % 16 = 15) (xs0 : Vec F S2048x64 .f32) : Vec F S2048x64 .f32 :=
  VS0_0.read (Elt F) (VS0_0.writes (Elt F) VS0_0.junk (runB0 c t x0 x1 x2 h0 h1 xs0).1)
theorem scoverB0 (h0 : ¬t.val % 16 = 0) (h1 : ¬t.val % 16 = 15) (xs0 : Vec F S2048x64 .f32) : ∀ y, ∃ pc ∈ (runB0 c t x0 x1 x2 h0 h1 xs0).1, y ∈ pc.1.set :=
  View.cover_of_tiledL _ S2048x64.size (by sl_kernel_rfl)

/-- The output block and the accumulator after the last contraction step. -/
def outC0 (h0 : ¬t.val % 16 = 0) (h1 : t.val % 16 = 15) (xs0 : Vec F S2048x64 .f32) : Vec F S2048x64 .f32 :=
  VO0_3.read (Elt F) (VO0_3.writes (Elt F) VO0_3.junk (runC0 c t x0 x1 x2 h0 h1 xs0).1)
def soutC0 (h0 : ¬t.val % 16 = 0) (h1 : t.val % 16 = 15) (xs0 : Vec F S2048x64 .f32) : Vec F S2048x64 .f32 :=
  VS0_0.read (Elt F) (VS0_0.writes (Elt F) VS0_0.junk (runC0 c t x0 x1 x2 h0 h1 xs0).2.1)
theorem coverC0 (h0 : ¬t.val % 16 = 0) (h1 : t.val % 16 = 15) (xs0 : Vec F S2048x64 .f32) : ∀ y, ∃ pc ∈ (runC0 c t x0 x1 x2 h0 h1 xs0).1, y ∈ pc.1.set :=
  View.cover_of_tiledL _ S2048x64.size (by sl_kernel_rfl)
theorem scoverC0 (h0 : ¬t.val % 16 = 0) (h1 : t.val % 16 = 15) (xs0 : Vec F S2048x64 .f32) : ∀ y, ∃ pc ∈ (runC0 c t x0 x1 x2 h0 h1 xs0).2.1, y ∈ pc.1.set :=
  View.cover_of_tiledL _ S2048x64.size (by sl_kernel_rfl)

end Point

/-- What point `t` leaves in the output block and the accumulator, over what the point before left in the accumulator:
    the case the point's contraction step selects. -/
def step0 (c : Dev nD) (t : Fin cfg0.N) (xs0 : Vec F S2048x64 .f32) : Vec F S2048x64 .f32 × Vec F S2048x64 .f32 :=
  if h0 : t.val % 16 = 0 then (outIdle0, soutA0 c t (iblk0 V c 0 t) (iblk0 V c 1 t) (iblk0 V c 2 t) h0 (by omega))
  else if h1 : t.val % 16 = 15 then (outC0 c t (iblk0 V c 0 t) (iblk0 V c 1 t) (iblk0 V c 2 t) h0 h1 xs0, soutC0 c t (iblk0 V c 0 t) (iblk0 V c 1 t) (iblk0 V c 2 t) h0 h1 xs0)
  else (outIdle0, soutB0 c t (iblk0 V c 0 t) (iblk0 V c 1 t) (iblk0 V c 2 t) h0 h1 xs0)

/-- The output block and the accumulator after the body at position `n`. -/
def outsAt0 (c : Dev nD) : (n : ℕ) → n < cfg0.N → Vec F S2048x64 .f32 × Vec F S2048x64 .f32
  | 0, hn => step0 V c ⟨0, hn⟩ (VS0_0.read (Elt F) VS0_0.junk)
  | n + 1, hn => step0 V c ⟨n + 1, hn⟩ (outsAt0 c n (Nat.lt_of_succ_lt hn)).2

theorem outsAt0_eq (c : Dev nD) (t : Fin cfg0.N) (h0 : ¬t.val % 16 = 0) : outsAt0 V c t.val t.isLt = step0 V c t (outsAt0 V c (t.val - 1) (Nat.lt_of_le_of_lt (Nat.sub_le _ _) t.isLt)).2 := by
  obtain ⟨n, hn⟩ := t
  cases n with
  | zero => exact absurd (Nat.zero_mod _) h0
  | succ n => rfl

theorem outsAt0_A (c : Dev nD) (t : Fin cfg0.N) (h0 : t.val % 16 = 0) :
    outsAt0 V c t.val t.isLt = (outIdle0, soutA0 c t (iblk0 V c 0 t) (iblk0 V c 1 t) (iblk0 V c 2 t) h0 (by omega)) := by
  obtain ⟨n, hn⟩ := t
  cases n <;> (show step0 V c _ _ = _; exact dif_pos h0)
theorem outsAt0_B (c : Dev nD) (t : Fin cfg0.N) (h0 : ¬t.val % 16 = 0) (h1 : ¬t.val % 16 = 15) :
    outsAt0 V c t.val t.isLt = (outIdle0, soutB0 c t (iblk0 V c 0 t) (iblk0 V c 1 t) (iblk0 V c 2 t) h0 h1 (outsAt0 V c (t.val - 1) (Nat.lt_of_le_of_lt (Nat.sub_le _ _) t.isLt)).2) :=
  (outsAt0_eq V c t h0).trans ((dif_neg h0).trans (dif_neg h1))
theorem outsAt0_C (c : Dev nD) (t : Fin cfg0.N) (h0 : ¬t.val % 16 = 0) (h1 : t.val % 16 = 15) :
    outsAt0 V c t.val t.isLt = (outC0 c t (iblk0 V c 0 t) (iblk0 V c 1 t) (iblk0 V c 2 t) h0 h1 (outsAt0 V c (t.val - 1) (Nat.lt_of_le_of_lt (Nat.sub_le _ _) t.isLt)).2, soutC0 c t (iblk0 V c 0 t) (iblk0 V c 1 t) (iblk0 V c 2 t) h0 h1 (outsAt0 V c (t.val - 1) (Nat.lt_of_le_of_lt (Nat.sub_le _ _) t.isLt)).2) :=
  (outsAt0_eq V c t h0).trans ((dif_neg h0).trans (dif_pos h1))

/-- The accumulator before position `n`: anything before the first point, afterwards what the point before left. -/
def acc0 (c : Dev nD) : (n : ℕ) → n ≤ cfg0.N → sProp 𝕄
  | 0, _ => iprop(∃ d, owns (c : Thread nD τ) scM0_0 fullShare d)
  | n + 1, hn => owns (c : Thread nD τ) scM0_0 fullShare (outsAt0 V c n hn).2
theorem acc0_any (c : Dev nD) (n : ℕ) (h : n ≤ cfg0.N) : acc0 V c n h ⊢ iprop(∃ d, owns (c : Thread nD τ) scM0_0 fullShare d) := by
  cases n with
  | zero => exact .rfl
  | succ n => show owns (c : Thread nD τ) scM0_0 fullShare _ ⊢ _; iintro H; iexists _; iexact H
theorem acc0_pos (c : Dev nD) (n : ℕ) (h : n ≤ cfg0.N) (hz : n ≠ 0) :
    acc0 V c n h = owns (c : Thread nD τ) scM0_0 fullShare (outsAt0 V c (n - 1) (by omega)).2 := by
  cases n with
  | zero => exact absurd rfl hz
  | succ n => rfl

/-- The region's invariant before position `n`: the accumulator, the other calls' scoped buffers, the generator register. -/
def PhiS0 (c : Dev nD) (n : ℕ) (h : n ≤ cfg0.N) : sProp 𝕄 :=
  iprop(iprop(acc0 V c n h ∗ others0 (F := F) c) ∗ (∃ r, prngReg c r))

/-- The region's proof data at the entry contents `V`: each input's buffer at its block, the output block and the
    accumulator at `outsAt0`, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = (outsAt0 V c t.val t.isLt).1 := rfl
/-- An input window's staging buffer holds its block at every point, fetched there or not. -/
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

/-- The body at any point: the point's contraction step says which case it is in; the invariant hands the body the
    accumulator at what the point before left (at anything before the first point) and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2]
  rw [show (dat0 V c).owesAt () t.succ = (dat0 V c).owesAt () t.castSucc from rfl,
    show (dat0 V c).Φ t.succ = iprop(iprop(owns (c : Thread nD τ) scM0_0 fullShare (outsAt0 V c t.val t.isLt).2 ∗ others0 (F := F) c) ∗ (∃ r, prngReg c r)) from rfl,
    show (dat0 V c).Φ t.castSucc = iprop(iprop(acc0 V c t.val (Nat.le_of_lt t.isLt) ∗ others0 (F := F) c) ∗ (∃ r, prngReg c r)) from rfl,
    show (dat0 V c).leavesExact 0 t = owns (c : Thread nD τ) (ms0_0 t) fullShare (iblk0 V c 0 t) from by unfold Dat.leavesExact; rw [liveAt0_0 t]; rfl,
    show (dat0 V c).leavesExact 1 t = owns (c : Thread nD τ) (ms0_1 t) fullShare (iblk0 V c 1 t) from by unfold Dat.leavesExact; rw [liveAt0_1 t]; rfl,
    show (dat0 V c).leavesExact 2 t = owns (c : Thread nD τ) (ms0_2 t) fullShare (iblk0 V c 2 t) from by unfold Dat.leavesExact; rw [liveAt0_2 t]; rfl]
  have idle3 := fun h1 : ¬t.val % 16 = 15 => Dat.leavesExact_idle (dat0 V c) 3 t
    (idleAt0_3 t fun h => h1 ((hcond0_1 t).mp h)) (noFlush0_3 t fun h => h1 ((hcond0_1 t).mp h))
  by_cases h0 : t.val % 16 = 0
  · rw [idle3 (by omega), outsAt0_A V c t h0]
    unfold soutA0; dsimp only
    have hrun := fun x K => (runA0 c t (iblk0 V c 0 t) (iblk0 V c 1 t) (iblk0 V c 2 t) h0 (by omega)).2 x Set.univ K
    exact Cert.Lib.body_frame (w := wp frame (wpE (defs₀ (F := F)) Variants.none c none) Set.univ (bodyAt0 t)) ((dat0 V c).before 3 t) hrun (acc0_any V c _ _)
      (Cert.Lib.owns_of_writes (c : Thread nD τ) scM0_0 fullShare _ (scoverA0 c t _ _ _ h0 _)) fun d => by iintro H; iexists d; iexact H
  · rw [acc0_pos V c _ _ fun e => h0 (by rw [e])]
    by_cases h1 : t.val % 16 = 15
    · rw [show (dat0 V c).leavesExact 3 t = owns (c : Thread nD τ) (ms0_3 t) fullShare (outsAt0 V c t.val t.isLt).1 from by
        unfold Dat.leavesExact; rw [liveAt0_3 t ((hcond0_1 t).mpr h1)]; rfl, outsAt0_C V c t h0 h1]
      unfold outC0 soutC0; dsimp only
      have hrun := fun x K => (runC0 c t (iblk0 V c 0 t) (iblk0 V c 1 t) (iblk0 V c 2 t) h0 h1 (outsAt0 V c (t.val - 1) (Nat.lt_of_le_of_lt (Nat.sub_le _ _) t.isLt)).2).2.2 x Set.univ K
      exact Cert.Lib.body_frame (w := wp frame (wpE (defs₀ (F := F)) Variants.none c none) Set.univ (bodyAt0 t)) ((dat0 V c).before 3 t) hrun .rfl
        (Cert.Lib.owns_of_writes (c : Thread nD τ) scM0_0 fullShare _ (scoverC0 c t _ _ _ h0 h1 _)) fun _ => Cert.Lib.owns_of_writes (c : Thread nD τ) (ms0_3 t) fullShare _ (coverC0 c t _ _ _ h0 h1 _)
    · rw [idle3 h1, outsAt0_B V c t h0 h1]
      unfold soutB0; dsimp only
      have hrun := fun x K => (runB0 c t (iblk0 V c 0 t) (iblk0 V c 1 t) (iblk0 V c 2 t) h0 h1 (outsAt0 V c (t.val - 1) (Nat.lt_of_le_of_lt (Nat.sub_le _ _) t.isLt)).2).2 x Set.univ K
      exact Cert.Lib.body_frame (w := wp frame (wpE (defs₀ (F := F)) Variants.none c none) Set.univ (bodyAt0 t)) ((dat0 V c).before 3 t) hrun .rfl
        (Cert.Lib.owns_of_writes (c : Thread nD τ) scM0_0 fullShare _ (scoverB0 c t _ _ _ h0 h1 _)) fun d => by iintro H; iexists d; iexact H

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [PhiA0_eq]; exact .rfl

/-- After the last point the accumulator's contents are forgotten. -/
theorem hout0 (c : Dev nD) : (dat0 V c).Φ (Fin.last cfg0.N) ⊢ Pipeline.ΦA spec0 c := by
  rw [PhiA0_eq]; exact sep_mono (sep_mono (acc0_any V c _ _) .rfl) .rfl

end Cert.KernelIdeal.Hand

end
-- ==== Proof.KI.R1Runs.lean ====
import proofs.«141569_j26164940767949_1_alg».proof.Proof.Gen.KernelIdeal.Launch
import proofs.«141569_j26164940767949_1_alg».proof.Proof.Gen.KernelIdeal.Skeleton
import proofs.«141569_j26164940767949_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
/-- Point t = 16·i + k is row block i at contraction step k: the accumulator is reset exactly when k = 0. -/
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
/-- The output block is computed and stored exactly at the last contraction step, k = 15. -/
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev VO1_3 : View sig .tc .vmem S2048x32 .f32 := (Memref.whole cc1_stg3_0 : Memref sig .tc .vmem S2048x32 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x32 .f32 := win1_3.stage (cfg1.slots t 3)
abbrev hs1_3 (t : Fin cfg1.N) : (ms1_3 t).IsWhole := hstage1_3 ((cfg1.slots t 3).cast nbuf1_3)
abbrev scM1_0 : Memref sig .tc .vmem S2048x64 .f32 := Memref.whole cc1_scratch0
abbrev VS1_0 : View sig .tc .vmem S2048x64 .f32 := scM1_0.view

/-- Every scoped buffer that is neither a staging buffer of this call nor its accumulator: this region never touches them. -/
def others1 (c : Dev nD) : sProp 𝕄 :=
  Pipeline.scopedRestBut (Ix := Unit) (Name := ℕ) (U := UR sig nD τ) (Lvl := ℕ) (Val := Elt F) spec1 c [cc1_scratch0]

/-- The region's invariant before its first point, with the accumulator split off the scoped rest. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA others1
  rw [Pipeline.scopedRest_split_of_list spec1 c [cc1_scratch0] (by decide) (by decide)]
  simp only [scM1_0, owns_whole, bigSepL_singleton]; try rfl

end Cert.KernelIdeal.Hand

end
-- ==== Proof.KI.R1Cases.lean ====
import proofs.«141569_j26164940767949_1_alg».proof.Proof.KI.R1Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S32x64 .f32) (harg4 : arg4.IsWhole) (arg5 : Memref sig .tc .vmem S2048x32 .f32) (harg5 : arg5.IsWhole) (arg6 : Memref sig .tc .vmem S2048x64 .f32) (harg6 : arg6.IsWhole)
  (x0 : Vec F S2048x1024 .f32) (x1 : Vec F S1024x64 .f32) (x2 : Vec F S32x64 .f32)

/-- Contraction step 0: the accumulator is stored whole twice (the zero splat, then zero plus the step's block product), so
    what it held before does not matter; the output block is untouched. -/
noncomputable def kernelRun1_A (hc0 : cond1_0 i) (hc1 : ¬cond1_1 i) :
    { LS0 : List (View.Piece (Elt F) S2048x64 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_kernel i arg2 harg2 arg3 harg3 arg4 harg4 arg5 harg5 arg6 harg6) K } := by
  refine ⟨?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- A contraction step strictly between the first and the last: the accumulator is stored whole once (what it held plus the
    step's block product); the output block is untouched. -/
noncomputable def kernelRun1_B (hc0 : ¬cond1_0 i) (hc1 : ¬cond1_1 i) (xs0 : Vec F S2048x64 .f32) :
    { LS0 : List (View.Piece (Elt F) S2048x64 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_kernel i arg2 harg2 arg3 harg3 arg4 harg4 arg5 harg5 arg6 harg6) K } := by
  refine ⟨?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Contraction step 15: the accumulator is stored whole once (what it held plus the step's block product) and read back,
    and the output block is stored whole from it and the weights. -/
noncomputable def kernelRun1_C (hc0 : ¬cond1_0 i) (hc1 : cond1_1 i) (xs0 : Vec F S2048x64 .f32) :
    Σ' (L3 : List (View.Piece (Elt F) S2048x32 .f32)), { LS0 : List (View.Piece (Elt F) S2048x64 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_kernel i arg2 harg2 arg3 harg3 arg4 harg4 arg5 harg5 arg6 harg6) K } := by
  refine ⟨?_, ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R1Body.lean ====
import proofs.«141569_j26164940767949_1_alg».proof.Proof.KI.R1Cases
import proofs.«141569_j26164940767949_1_alg».proof.Proof.LibFrame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A placeholder for the output block where no case stores into it: nothing consults it. -/
def outIdle1 : Vec F S2048x32 .f32 := VO1_3.read (Elt F) (VO1_3.writes (Elt F) VO1_3.junk [])

section Point

variable (c : Dev nD) (t : Fin cfg1.N) (x0 : Vec F S2048x1024 .f32) (x1 : Vec F S1024x64 .f32) (x2 : Vec F S32x64 .f32)

abbrev runA1 (h0 : t.val % 16 = 0) (h1 : ¬t.val % 16 = 15) :=
  kernelRun1_A c (grid1.coords t) (ms1_0 t) (hs1_0 t) (ms1_1 t) (hs1_1 t) (ms1_2 t) (hs1_2 t) (ms1_3 t) (hs1_3 t) scM1_0 (Memref.isWhole_whole _) x0 x1 x2 ((hcond1_0 t).mpr h0) (fun h => h1 ((hcond1_1 t).mp h))
abbrev runB1 (h0 : ¬t.val % 16 = 0) (h1 : ¬t.val % 16 = 15) (xs0 : Vec F S2048x64 .f32) :=
  kernelRun1_B c (grid1.coords t) (ms1_0 t) (hs1_0 t) (ms1_1 t) (hs1_1 t) (ms1_2 t) (hs1_2 t) (ms1_3 t) (hs1_3 t) scM1_0 (Memref.isWhole_whole _) x0 x1 x2 (fun h => h0 ((hcond1_0 t).mp h)) (fun h => h1 ((hcond1_1 t).mp h)) xs0
abbrev runC1 (h0 : ¬t.val % 16 = 0) (h1 : t.val % 16 = 15) (xs0 : Vec F S2048x64 .f32) :=
  kernelRun1_C c (grid1.coords t) (ms1_0 t) (hs1_0 t) (ms1_1 t) (hs1_1 t) (ms1_2 t) (hs1_2 t) (ms1_3 t) (hs1_3 t) scM1_0 (Memref.isWhole_whole _) x0 x1 x2 (fun h => h0 ((hcond1_0 t).mp h)) ((hcond1_1 t).mpr h1) xs0

/-- The accumulator after contraction step 0. -/
def soutA1 (h0 : t.val % 16 = 0) (h1 : ¬t.val % 16 = 15) : Vec F S2048x64 .f32 :=
  VS1_0.read (Elt F) (VS1_0.writes (Elt F) VS1_0.junk (runA1 c t x0 x1 x2 h0 h1).1)
theorem scoverA1 (h0 : t.val % 16 = 0) (h1 : ¬t.val % 16 = 15) : ∀ y, ∃ pc ∈ (runA1 c t x0 x1 x2 h0 h1).1, y ∈ pc.1.set :=
  View.cover_of_tiledL _ S2048x64.size (by sl_kernel_rfl)

/-- The accumulator after a middle contraction step, over what the step before left (`xs0`). -/
def soutB1 (h0 : ¬t.val % 16 = 0) (h1 : ¬t.val % 16 = 15) (xs0 : Vec F S2048x64 .f32) : Vec F S2048x64 .f32 :=
  VS1_0.read (Elt F) (VS1_0.writes (Elt F) VS1_0.junk (runB1 c t x0 x1 x2 h0 h1 xs0).1)
theorem scoverB1 (h0 : ¬t.val % 16 = 0) (h1 : ¬t.val % 16 = 15) (xs0 : Vec F S2048x64 .f32) : ∀ y, ∃ pc ∈ (runB1 c t x0 x1 x2 h0 h1 xs0).1, y ∈ pc.1.set :=
  View.cover_of_tiledL _ S2048x64.size (by sl_kernel_rfl)

/-- The output block and the accumulator after the last contraction step. -/
def outC1 (h0 : ¬t.val % 16 = 0) (h1 : t.val % 16 = 15) (xs0 : Vec F S2048x64 .f32) : Vec F S2048x32 .f32 :=
  VO1_3.read (Elt F) (VO1_3.writes (Elt F) VO1_3.junk (runC1 c t x0 x1 x2 h0 h1 xs0).1)
def soutC1 (h0 : ¬t.val % 16 = 0) (h1 : t.val % 16 = 15) (xs0 : Vec F S2048x64 .f32) : Vec F S2048x64 .f32 :=
  VS1_0.read (Elt F) (VS1_0.writes (Elt F) VS1_0.junk (runC1 c t x0 x1 x2 h0 h1 xs0).2.1)
theorem coverC1 (h0 : ¬t.val % 16 = 0) (h1 : t.val % 16 = 15) (xs0 : Vec F S2048x64 .f32) : ∀ y, ∃ pc ∈ (runC1 c t x0 x1 x2 h0 h1 xs0).1, y ∈ pc.1.set :=
  View.cover_of_tiledL _ S2048x32.size (by sl_kernel_rfl)
theorem scoverC1 (h0 : ¬t.val % 16 = 0) (h1 : t.val % 16 = 15) (xs0 : Vec F S2048x64 .f32) : ∀ y, ∃ pc ∈ (runC1 c t x0 x1 x2 h0 h1 xs0).2.1, y ∈ pc.1.set :=
  View.cover_of_tiledL _ S2048x64.size (by sl_kernel_rfl)

end Point

/-- What point `t` leaves in the output block and the accumulator, over what the point before left in the accumulator:
    the case the point's contraction step selects. -/
def step1 (c : Dev nD) (t : Fin cfg1.N) (xs0 : Vec F S2048x64 .f32) : Vec F S2048x32 .f32 × Vec F S2048x64 .f32 :=
  if h0 : t.val % 16 = 0 then (outIdle1, soutA1 c t (iblk1 V c 0 t) (iblk1 V c 1 t) (iblk1 V c 2 t) h0 (by omega))
  else if h1 : t.val % 16 = 15 then (outC1 c t (iblk1 V c 0 t) (iblk1 V c 1 t) (iblk1 V c 2 t) h0 h1 xs0, soutC1 c t (iblk1 V c 0 t) (iblk1 V c 1 t) (iblk1 V c 2 t) h0 h1 xs0)
  else (outIdle1, soutB1 c t (iblk1 V c 0 t) (iblk1 V c 1 t) (iblk1 V c 2 t) h0 h1 xs0)

/-- The output block and the accumulator after the body at position `n`. -/
def outsAt1 (c : Dev nD) : (n : ℕ) → n < cfg1.N → Vec F S2048x32 .f32 × Vec F S2048x64 .f32
  | 0, hn => step1 V c ⟨0, hn⟩ (VS1_0.read (Elt F) VS1_0.junk)
  | n + 1, hn => step1 V c ⟨n + 1, hn⟩ (outsAt1 c n (Nat.lt_of_succ_lt hn)).2

theorem outsAt1_eq (c : Dev nD) (t : Fin cfg1.N) (h0 : ¬t.val % 16 = 0) : outsAt1 V c t.val t.isLt = step1 V c t (outsAt1 V c (t.val - 1) (Nat.lt_of_le_of_lt (Nat.sub_le _ _) t.isLt)).2 := by
  obtain ⟨n, hn⟩ := t
  cases n with
  | zero => exact absurd (Nat.zero_mod _) h0
  | succ n => rfl

theorem outsAt1_A (c : Dev nD) (t : Fin cfg1.N) (h0 : t.val % 16 = 0) :
    outsAt1 V c t.val t.isLt = (outIdle1, soutA1 c t (iblk1 V c 0 t) (iblk1 V c 1 t) (iblk1 V c 2 t) h0 (by omega)) := by
  obtain ⟨n, hn⟩ := t
  cases n <;> (show step1 V c _ _ = _; exact dif_pos h0)
theorem outsAt1_B (c : Dev nD) (t : Fin cfg1.N) (h0 : ¬t.val % 16 = 0) (h1 : ¬t.val % 16 = 15) :
    outsAt1 V c t.val t.isLt = (outIdle1, soutB1 c t (iblk1 V c 0 t) (iblk1 V c 1 t) (iblk1 V c 2 t) h0 h1 (outsAt1 V c (t.val - 1) (Nat.lt_of_le_of_lt (Nat.sub_le _ _) t.isLt)).2) :=
  (outsAt1_eq V c t h0).trans ((dif_neg h0).trans (dif_neg h1))
theorem outsAt1_C (c : Dev nD) (t : Fin cfg1.N) (h0 : ¬t.val % 16 = 0) (h1 : t.val % 16 = 15) :
    outsAt1 V c t.val t.isLt = (outC1 c t (iblk1 V c 0 t) (iblk1 V c 1 t) (iblk1 V c 2 t) h0 h1 (outsAt1 V c (t.val - 1) (Nat.lt_of_le_of_lt (Nat.sub_le _ _) t.isLt)).2, soutC1 c t (iblk1 V c 0 t) (iblk1 V c 1 t) (iblk1 V c 2 t) h0 h1 (outsAt1 V c (t.val - 1) (Nat.lt_of_le_of_lt (Nat.sub_le _ _) t.isLt)).2) :=
  (outsAt1_eq V c t h0).trans ((dif_neg h0).trans (dif_pos h1))

/-- The accumulator before position `n`: anything before the first point, afterwards what the point before left. -/
def acc1 (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2
theorem acc1_any (c : Dev nD) (n : ℕ) (h : n ≤ cfg1.N) : acc1 V c n h ⊢ iprop(∃ d, owns (c : Thread nD τ) scM1_0 fullShare d) := by
  cases n with
  | zero => exact .rfl
  | succ n => show owns (c : Thread nD τ) scM1_0 fullShare _ ⊢ _; iintro H; iexists _; iexact H
theorem acc1_pos (c : Dev nD) (n : ℕ) (h : n ≤ cfg1.N) (hz : n ≠ 0) :
    acc1 V c n h = owns (c : Thread nD τ) scM1_0 fullShare (outsAt1 V c (n - 1) (by omega)).2 := by
  cases n with
  | zero => exact absurd rfl hz
  | succ n => rfl

/-- The region's invariant before position `n`: the accumulator, the other calls' scoped buffers, the generator register. -/
def PhiS1 (c : Dev nD) (n : ℕ) (h : n ≤ cfg1.N) : sProp 𝕄 :=
  iprop(iprop(acc1 V c n h ∗ others1 (F := F) c) ∗ (∃ r, prngReg c r))

/-- The region's proof data at the entry contents `V`: each input's buffer at its block, the output block and the
    accumulator at `outsAt1`, nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = (outsAt1 V c t.val t.isLt).1 := rfl
/-- An input window's staging buffer holds its block at every point, fetched there or not. -/
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

/-- The body at any point: the point's contraction step says which case it is in; the invariant hands the body the
    accumulator at what the point before left (at anything before the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2]
  rw [show (dat1 V c).owesAt () t.succ = (dat1 V c).owesAt () t.castSucc from rfl,
    show (dat1 V c).Φ t.succ = iprop(iprop(owns (c : Thread nD τ) scM1_0 fullShare (outsAt1 V c t.val t.isLt).2 ∗ others1 (F := F) c) ∗ (∃ r, prngReg c r)) from rfl,
    show (dat1 V c).Φ t.castSucc = iprop(iprop(acc1 V c t.val (Nat.le_of_lt t.isLt) ∗ others1 (F := F) c) ∗ (∃ r, prngReg c r)) from rfl,
    show (dat1 V c).leavesExact 0 t = owns (c : Thread nD τ) (ms1_0 t) fullShare (iblk1 V c 0 t) from by unfold Dat.leavesExact; rw [liveAt1_0 t]; rfl,
    show (dat1 V c).leavesExact 1 t = owns (c : Thread nD τ) (ms1_1 t) fullShare (iblk1 V c 1 t) from by unfold Dat.leavesExact; rw [liveAt1_1 t]; rfl,
    show (dat1 V c).leavesExact 2 t = owns (c : Thread nD τ) (ms1_2 t) fullShare (iblk1 V c 2 t) from by unfold Dat.leavesExact; rw [liveAt1_2 t]; rfl]
  have idle3 := fun h1 : ¬t.val % 16 = 15 => Dat.leavesExact_idle (dat1 V c) 3 t
    (idleAt1_3 t fun h => h1 ((hcond1_1 t).mp h)) (noFlush1_3 t fun h => h1 ((hcond1_1 t).mp h))
  by_cases h0 : t.val % 16 = 0
  · rw [idle3 (by omega), outsAt1_A V c t h0]
    unfold soutA1; dsimp only
    have hrun := fun x K => (runA1 c t (iblk1 V c 0 t) (iblk1 V c 1 t) (iblk1 V c 2 t) h0 (by omega)).2 x Set.univ K
    exact Cert.Lib.body_frame (w := wp frame (wpE (defs₀ (F := F)) Variants.none c none) Set.univ (bodyAt1 t)) ((dat1 V c).before 3 t) hrun (acc1_any V c _ _)
      (Cert.Lib.owns_of_writes (c : Thread nD τ) scM1_0 fullShare _ (scoverA1 c t _ _ _ h0 _)) fun d => by iintro H; iexists d; iexact H
  · rw [acc1_pos V c _ _ fun e => h0 (by rw [e])]
    by_cases h1 : t.val % 16 = 15
    · rw [show (dat1 V c).leavesExact 3 t = owns (c : Thread nD τ) (ms1_3 t) fullShare (outsAt1 V c t.val t.isLt).1 from by
        unfold Dat.leavesExact; rw [liveAt1_3 t ((hcond1_1 t).mpr h1)]; rfl, outsAt1_C V c t h0 h1]
      unfold outC1 soutC1; dsimp only
      have hrun := fun x K => (runC1 c t (iblk1 V c 0 t) (iblk1 V c 1 t) (iblk1 V c 2 t) h0 h1 (outsAt1 V c (t.val - 1) (Nat.lt_of_le_of_lt (Nat.sub_le _ _) t.isLt)).2).2.2 x Set.univ K
      exact Cert.Lib.body_frame (w := wp frame (wpE (defs₀ (F := F)) Variants.none c none) Set.univ (bodyAt1 t)) ((dat1 V c).before 3 t) hrun .rfl
        (Cert.Lib.owns_of_writes (c : Thread nD τ) scM1_0 fullShare _ (scoverC1 c t _ _ _ h0 h1 _)) fun _ => Cert.Lib.owns_of_writes (c : Thread nD τ) (ms1_3 t) fullShare _ (coverC1 c t _ _ _ h0 h1 _)
    · rw [idle3 h1, outsAt1_B V c t h0 h1]
      unfold soutB1; dsimp only
      have hrun := fun x K => (runB1 c t (iblk1 V c 0 t) (iblk1 V c 1 t) (iblk1 V c 2 t) h0 h1 (outsAt1 V c (t.val - 1) (Nat.lt_of_le_of_lt (Nat.sub_le _ _) t.isLt)).2).2 x Set.univ K
      exact Cert.Lib.body_frame (w := wp frame (wpE (defs₀ (F := F)) Variants.none c none) Set.univ (bodyAt1 t)) ((dat1 V c).before 3 t) hrun .rfl
        (Cert.Lib.owns_of_writes (c : Thread nD τ) scM1_0 fullShare _ (scoverB1 c t _ _ _ h0 h1 _)) fun d => by iintro H; iexists d; iexact H

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [PhiA1_eq]; exact .rfl

/-- After the last point the accumulator's contents are forgotten. -/
theorem hout1 (c : Dev nD) : (dat1 V c).Φ (Fin.last cfg1.N) ⊢ Pipeline.ΦA spec1 c := by
  rw [PhiA1_eq]; exact sep_mono (sep_mono (acc1_any V c _ _) .rfl) .rfl

end Cert.KernelIdeal.Hand

end
-- ==== Proof.KI.R2Runs.lean ====
import proofs.«141569_j26164940767949_1_alg».proof.Proof.Gen.KernelIdeal.Launch
import proofs.«141569_j26164940767949_1_alg».proof.Proof.Gen.KernelIdeal.Skeleton
import proofs.«141569_j26164940767949_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
/-- Point t = 16·i + k is row block i at contraction step k: the accumulator is reset exactly when k = 0. -/
theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1
/-- The output block is computed and stored exactly at the last contraction step, k = 15. -/
theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

abbrev VO2_3 : View sig .tc .vmem S2048x32 .f32 := (Memref.whole cc2_stg3_0 : Memref sig .tc .vmem S2048x32 .f32).view
abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x32 .f32 := win2_3.stage (cfg2.slots t 3)
abbrev hs2_3 (t : Fin cfg2.N) : (ms2_3 t).IsWhole := hstage2_3 ((cfg2.slots t 3).cast nbuf2_3)
abbrev scM2_0 : Memref sig .tc .vmem S2048x32 .f32 := Memref.whole cc2_scratch0
abbrev VS2_0 : View sig .tc .vmem S2048x32 .f32 := scM2_0.view

/-- Every scoped buffer that is neither a staging buffer of this call nor its accumulator: this region never touches them. -/
def others2 (c : Dev nD) : sProp 𝕄 :=
  Pipeline.scopedRestBut (Ix := Unit) (Name := ℕ) (U := UR sig nD τ) (Lvl := ℕ) (Val := Elt F) spec2 c [cc2_scratch0]

/-- The region's invariant before its first point, with the accumulator split off the scoped rest. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA others2
  rw [Pipeline.scopedRest_split_of_list spec2 c [cc2_scratch0] (by decide) (by decide)]
  simp only [scM2_0, owns_whole, bigSepL_singleton]; try rfl

end Cert.KernelIdeal.Hand

end
-- ==== Proof.KI.R2Cases.lean ====
import proofs.«141569_j26164940767949_1_alg».proof.Proof.KI.R2Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S2048x1024 .f32) (harg2 : arg2.IsWhole) (arg3 : Memref sig .tc .vmem S1024x32 .f32) (harg3 : arg3.IsWhole) (arg4 : Memref sig .tc .vmem S32x32 .f32) (harg4 : arg4.IsWhole) (arg5 : Memref sig .tc .vmem S2048x32 .f32) (harg5 : arg5.IsWhole) (arg6 : Memref sig .tc .vmem S2048x32 .f32) (harg6 : arg6.IsWhole)
  (x0 : Vec F S2048x1024 .f32) (x1 : Vec F S1024x32 .f32) (x2 : Vec F S32x32 .f32)

/-- Contraction step 0: the accumulator is stored whole twice (the zero splat, then zero plus the step's block product), so
    what it held before does not matter; the output block is untouched. -/
noncomputable def kernelRun2_A (hc0 : cond2_0 i) (hc1 : ¬cond2_1 i) :
    { LS0 : List (View.Piece (Elt F) S2048x32 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_kernel i arg2 harg2 arg3 harg3 arg4 harg4 arg5 harg5 arg6 harg6) K } := by
  refine ⟨?_, fun xi3 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- A contraction step strictly between the first and the last: the accumulator is stored whole once (what it held plus the
    step's block product); the output block is untouched. -/
noncomputable def kernelRun2_B (hc0 : ¬cond2_0 i) (hc1 : ¬cond2_1 i) (xs0 : Vec F S2048x32 .f32) :
    { LS0 : List (View.Piece (Elt F) S2048x32 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_kernel i arg2 harg2 arg3 harg3 arg4 harg4 arg5 harg5 arg6 harg6) K } := by
  refine ⟨?_, fun xi3 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Contraction step 15: the accumulator is stored whole once (what it held plus the step's block product) and read back,
    and the output block is stored whole from it and the weights. -/
noncomputable def kernelRun2_C (hc0 : ¬cond2_0 i) (hc1 : cond2_1 i) (xs0 : Vec F S2048x32 .f32) :
    Σ' (L3 : List (View.Piece (Elt F) S2048x32 .f32)), { LS0 : List (View.Piece (Elt F) S2048x32 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_kernel i arg2 harg2 arg3 harg3 arg4 harg4 arg5 harg5 arg6 harg6) K } := by
  refine ⟨?_, ?_, fun xi3 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R2Body.lean ====
import proofs.«141569_j26164940767949_1_alg».proof.Proof.KI.R2Cases
import proofs.«141569_j26164940767949_1_alg».proof.Proof.LibFrame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A placeholder for the output block where no case stores into it: nothing consults it. -/
def outIdle2 : Vec F S2048x32 .f32 := VO2_3.read (Elt F) (VO2_3.writes (Elt F) VO2_3.junk [])

section Point

variable (c : Dev nD) (t : Fin cfg2.N) (x0 : Vec F S2048x1024 .f32) (x1 : Vec F S1024x32 .f32) (x2 : Vec F S32x32 .f32)

abbrev runA2 (h0 : t.val % 16 = 0) (h1 : ¬t.val % 16 = 15) :=
  kernelRun2_A c (grid2.coords t) (ms2_0 t) (hs2_0 t) (ms2_1 t) (hs2_1 t) (ms2_2 t) (hs2_2 t) (ms2_3 t) (hs2_3 t) scM2_0 (Memref.isWhole_whole _) x0 x1 x2 ((hcond2_0 t).mpr h0) (fun h => h1 ((hcond2_1 t).mp h))
abbrev runB2 (h0 : ¬t.val % 16 = 0) (h1 : ¬t.val % 16 = 15) (xs0 : Vec F S2048x32 .f32) :=
  kernelRun2_B c (grid2.coords t) (ms2_0 t) (hs2_0 t) (ms2_1 t) (hs2_1 t) (ms2_2 t) (hs2_2 t) (ms2_3 t) (hs2_3 t) scM2_0 (Memref.isWhole_whole _) x0 x1 x2 (fun h => h0 ((hcond2_0 t).mp h)) (fun h => h1 ((hcond2_1 t).mp h)) xs0
abbrev runC2 (h0 : ¬t.val % 16 = 0) (h1 : t.val % 16 = 15) (xs0 : Vec F S2048x32 .f32) :=
  kernelRun2_C c (grid2.coords t) (ms2_0 t) (hs2_0 t) (ms2_1 t) (hs2_1 t) (ms2_2 t) (hs2_2 t) (ms2_3 t) (hs2_3 t) scM2_0 (Memref.isWhole_whole _) x0 x1 x2 (fun h => h0 ((hcond2_0 t).mp h)) ((hcond2_1 t).mpr h1) xs0

/-- The accumulator after contraction step 0. -/
def soutA2 (h0 : t.val % 16 = 0) (h1 : ¬t.val % 16 = 15) : Vec F S2048x32 .f32 :=
  VS2_0.read (Elt F) (VS2_0.writes (Elt F) VS2_0.junk (runA2 c t x0 x1 x2 h0 h1).1)
theorem scoverA2 (h0 : t.val % 16 = 0) (h1 : ¬t.val % 16 = 15) : ∀ y, ∃ pc ∈ (runA2 c t x0 x1 x2 h0 h1).1, y ∈ pc.1.set :=
  View.cover_of_tiledL _ S2048x32.size (by sl_kernel_rfl)

/-- The accumulator after a middle contraction step, over what the step before left (`xs0`). -/
def soutB2 (h0 : ¬t.val % 16 = 0) (h1 : ¬t.val % 16 = 15) (xs0 : Vec F S2048x32 .f32) : Vec F S2048x32 .f32 :=
  VS2_0.read (Elt F) (VS2_0.writes (Elt F) VS2_0.junk (runB2 c t x0 x1 x2 h0 h1 xs0).1)
theorem scoverB2 (h0 : ¬t.val % 16 = 0) (h1 : ¬t.val % 16 = 15) (xs0 : Vec F S2048x32 .f32) : ∀ y, ∃ pc ∈ (runB2 c t x0 x1 x2 h0 h1 xs0).1, y ∈ pc.1.set :=
  View.cover_of_tiledL _ S2048x32.size (by sl_kernel_rfl)

/-- The output block and the accumulator after the last contraction step. -/
def outC2 (h0 : ¬t.val % 16 = 0) (h1 : t.val % 16 = 15) (xs0 : Vec F S2048x32 .f32) : Vec F S2048x32 .f32 :=
  VO2_3.read (Elt F) (VO2_3.writes (Elt F) VO2_3.junk (runC2 c t x0 x1 x2 h0 h1 xs0).1)
def soutC2 (h0 : ¬t.val % 16 = 0) (h1 : t.val % 16 = 15) (xs0 : Vec F S2048x32 .f32) : Vec F S2048x32 .f32 :=
  VS2_0.read (Elt F) (VS2_0.writes (Elt F) VS2_0.junk (runC2 c t x0 x1 x2 h0 h1 xs0).2.1)
theorem coverC2 (h0 : ¬t.val % 16 = 0) (h1 : t.val % 16 = 15) (xs0 : Vec F S2048x32 .f32) : ∀ y, ∃ pc ∈ (runC2 c t x0 x1 x2 h0 h1 xs0).1, y ∈ pc.1.set :=
  View.cover_of_tiledL _ S2048x32.size (by sl_kernel_rfl)
theorem scoverC2 (h0 : ¬t.val % 16 = 0) (h1 : t.val % 16 = 15) (xs0 : Vec F S2048x32 .f32) : ∀ y, ∃ pc ∈ (runC2 c t x0 x1 x2 h0 h1 xs0).2.1, y ∈ pc.1.set :=
  View.cover_of_tiledL _ S2048x32.size (by sl_kernel_rfl)

end Point

/-- What point `t` leaves in the output block and the accumulator, over what the point before left in the accumulator:
    the case the point's contraction step selects. -/
def step2 (c : Dev nD) (t : Fin cfg2.N) (xs0 : Vec F S2048x32 .f32) : Vec F S2048x32 .f32 × Vec F S2048x32 .f32 :=
  if h0 : t.val % 16 = 0 then (outIdle2, soutA2 c t (iblk2 V c 0 t) (iblk2 V c 1 t) (iblk2 V c 2 t) h0 (by omega))
  else if h1 : t.val % 16 = 15 then (outC2 c t (iblk2 V c 0 t) (iblk2 V c 1 t) (iblk2 V c 2 t) h0 h1 xs0, soutC2 c t (iblk2 V c 0 t) (iblk2 V c 1 t) (iblk2 V c 2 t) h0 h1 xs0)
  else (outIdle2, soutB2 c t (iblk2 V c 0 t) (iblk2 V c 1 t) (iblk2 V c 2 t) h0 h1 xs0)

/-- The output block and the accumulator after the body at position `n`. -/
def outsAt2 (c : Dev nD) : (n : ℕ) → n < cfg2.N → Vec F S2048x32 .f32 × Vec F S2048x32 .f32
  | 0, hn => step2 V c ⟨0, hn⟩ (VS2_0.read (Elt F) VS2_0.junk)
  | n + 1, hn => step2 V c ⟨n + 1, hn⟩ (outsAt2 c n (Nat.lt_of_succ_lt hn)).2

theorem outsAt2_eq (c : Dev nD) (t : Fin cfg2.N) (h0 : ¬t.val % 16 = 0) : outsAt2 V c t.val t.isLt = step2 V c t (outsAt2 V c (t.val - 1) (Nat.lt_of_le_of_lt (Nat.sub_le _ _) t.isLt)).2 := by
  obtain ⟨n, hn⟩ := t
  cases n with
  | zero => exact absurd (Nat.zero_mod _) h0
  | succ n => rfl

theorem outsAt2_A (c : Dev nD) (t : Fin cfg2.N) (h0 : t.val % 16 = 0) :
    outsAt2 V c t.val t.isLt = (outIdle2, soutA2 c t (iblk2 V c 0 t) (iblk2 V c 1 t) (iblk2 V c 2 t) h0 (by omega)) := by
  obtain ⟨n, hn⟩ := t
  cases n <;> (show step2 V c _ _ = _; exact dif_pos h0)
theorem outsAt2_B (c : Dev nD) (t : Fin cfg2.N) (h0 : ¬t.val % 16 = 0) (h1 : ¬t.val % 16 = 15) :
    outsAt2 V c t.val t.isLt = (outIdle2, soutB2 c t (iblk2 V c 0 t) (iblk2 V c 1 t) (iblk2 V c 2 t) h0 h1 (outsAt2 V c (t.val - 1) (Nat.lt_of_le_of_lt (Nat.sub_le _ _) t.isLt)).2) :=
  (outsAt2_eq V c t h0).trans ((dif_neg h0).trans (dif_neg h1))
theorem outsAt2_C (c : Dev nD) (t : Fin cfg2.N) (h0 : ¬t.val % 16 = 0) (h1 : t.val % 16 = 15) :
    outsAt2 V c t.val t.isLt = (outC2 c t (iblk2 V c 0 t) (iblk2 V c 1 t) (iblk2 V c 2 t) h0 h1 (outsAt2 V c (t.val - 1) (Nat.lt_of_le_of_lt (Nat.sub_le _ _) t.isLt)).2, soutC2 c t (iblk2 V c 0 t) (iblk2 V c 1 t) (iblk2 V c 2 t) h0 h1 (outsAt2 V c (t.val - 1) (Nat.lt_of_le_of_lt (Nat.sub_le _ _) t.isLt)).2) :=
  (outsAt2_eq V c t h0).trans ((dif_neg h0).trans (dif_pos h1))

/-- The accumulator before position `n`: anything before the first point, afterwards what the point before left. -/
def acc2 (c : Dev nD) : (n : ℕ) → n ≤ cfg2.N → sProp 𝕄
  | 0, _ => iprop(∃ d, owns (c : Thread nD τ) scM2_0 fullShare d)
  | n + 1, hn => owns (c : Thread nD τ) scM2_0 fullShare (outsAt2 V c n hn).2
theorem acc2_any (c : Dev nD) (n : ℕ) (h : n ≤ cfg2.N) : acc2 V c n h ⊢ iprop(∃ d, owns (c : Thread nD τ) scM2_0 fullShare d) := by
  cases n with
  | zero => exact .rfl
  | succ n => show owns (c : Thread nD τ) scM2_0 fullShare _ ⊢ _; iintro H; iexists _; iexact H
theorem acc2_pos (c : Dev nD) (n : ℕ) (h : n ≤ cfg2.N) (hz : n ≠ 0) :
    acc2 V c n h = owns (c : Thread nD τ) scM2_0 fullShare (outsAt2 V c (n - 1) (by omega)).2 := by
  cases n with
  | zero => exact absurd rfl hz
  | succ n => rfl

/-- The region's invariant before position `n`: the accumulator, the other calls' scoped buffers, the generator register. -/
def PhiS2 (c : Dev nD) (n : ℕ) (h : n ≤ cfg2.N) : sProp 𝕄 :=
  iprop(iprop(acc2 V c n h ∗ others2 (F := F) c) ∗ (∃ r, prngReg c r))

/-- The region's proof data at the entry contents `V`: each input's buffer at its block, the output block and the
    accumulator at `outsAt2`, nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = (outsAt2 V c t.val t.isLt).1 := rfl
/-- An input window's staging buffer holds its block at every point, fetched there or not. -/
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

/-- The body at any point: the point's contraction step says which case it is in; the invariant hands the body the
    accumulator at what the point before left (at anything before the first point) and takes it back at this point's. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1, before2_2]
  rw [show (dat2 V c).owesAt () t.succ = (dat2 V c).owesAt () t.castSucc from rfl,
    show (dat2 V c).Φ t.succ = iprop(iprop(owns (c : Thread nD τ) scM2_0 fullShare (outsAt2 V c t.val t.isLt).2 ∗ others2 (F := F) c) ∗ (∃ r, prngReg c r)) from rfl,
    show (dat2 V c).Φ t.castSucc = iprop(iprop(acc2 V c t.val (Nat.le_of_lt t.isLt) ∗ others2 (F := F) c) ∗ (∃ r, prngReg c r)) from rfl,
    show (dat2 V c).leavesExact 0 t = owns (c : Thread nD τ) (ms2_0 t) fullShare (iblk2 V c 0 t) from by unfold Dat.leavesExact; rw [liveAt2_0 t]; rfl,
    show (dat2 V c).leavesExact 1 t = owns (c : Thread nD τ) (ms2_1 t) fullShare (iblk2 V c 1 t) from by unfold Dat.leavesExact; rw [liveAt2_1 t]; rfl,
    show (dat2 V c).leavesExact 2 t = owns (c : Thread nD τ) (ms2_2 t) fullShare (iblk2 V c 2 t) from by unfold Dat.leavesExact; rw [liveAt2_2 t]; rfl]
  have idle3 := fun h1 : ¬t.val % 16 = 15 => Dat.leavesExact_idle (dat2 V c) 3 t
    (idleAt2_3 t fun h => h1 ((hcond2_1 t).mp h)) (noFlush2_3 t fun h => h1 ((hcond2_1 t).mp h))
  by_cases h0 : t.val % 16 = 0
  · rw [idle3 (by omega), outsAt2_A V c t h0]
    unfold soutA2; dsimp only
    have hrun := fun x K => (runA2 c t (iblk2 V c 0 t) (iblk2 V c 1 t) (iblk2 V c 2 t) h0 (by omega)).2 x Set.univ K
    exact Cert.Lib.body_frame (w := wp frame (wpE (defs₀ (F := F)) Variants.none c none) Set.univ (bodyAt2 t)) ((dat2 V c).before 3 t) hrun (acc2_any V c _ _)
      (Cert.Lib.owns_of_writes (c : Thread nD τ) scM2_0 fullShare _ (scoverA2 c t _ _ _ h0 _)) fun d => by iintro H; iexists d; iexact H
  · rw [acc2_pos V c _ _ fun e => h0 (by rw [e])]
    by_cases h1 : t.val % 16 = 15
    · rw [show (dat2 V c).leavesExact 3 t = owns (c : Thread nD τ) (ms2_3 t) fullShare (outsAt2 V c t.val t.isLt).1 from by
        unfold Dat.leavesExact; rw [liveAt2_3 t ((hcond2_1 t).mpr h1)]; rfl, outsAt2_C V c t h0 h1]
      unfold outC2 soutC2; dsimp only
      have hrun := fun x K => (runC2 c t (iblk2 V c 0 t) (iblk2 V c 1 t) (iblk2 V c 2 t) h0 h1 (outsAt2 V c (t.val - 1) (Nat.lt_of_le_of_lt (Nat.sub_le _ _) t.isLt)).2).2.2 x Set.univ K
      exact Cert.Lib.body_frame (w := wp frame (wpE (defs₀ (F := F)) Variants.none c none) Set.univ (bodyAt2 t)) ((dat2 V c).before 3 t) hrun .rfl
        (Cert.Lib.owns_of_writes (c : Thread nD τ) scM2_0 fullShare _ (scoverC2 c t _ _ _ h0 h1 _)) fun _ => Cert.Lib.owns_of_writes (c : Thread nD τ) (ms2_3 t) fullShare _ (coverC2 c t _ _ _ h0 h1 _)
    · rw [idle3 h1, outsAt2_B V c t h0 h1]
      unfold soutB2; dsimp only
      have hrun := fun x K => (runB2 c t (iblk2 V c 0 t) (iblk2 V c 1 t) (iblk2 V c 2 t) h0 h1 (outsAt2 V c (t.val - 1) (Nat.lt_of_le_of_lt (Nat.sub_le _ _) t.isLt)).2).2 x Set.univ K
      exact Cert.Lib.body_frame (w := wp frame (wpE (defs₀ (F := F)) Variants.none c none) Set.univ (bodyAt2 t)) ((dat2 V c).before 3 t) hrun .rfl
        (Cert.Lib.owns_of_writes (c : Thread nD τ) scM2_0 fullShare _ (scoverB2 c t _ _ _ h0 h1 _)) fun d => by iintro H; iexists d; iexact H

theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [PhiA2_eq]; exact .rfl

/-- After the last point the accumulator's contents are forgotten. -/
theorem hout2 (c : Dev nD) : (dat2 V c).Φ (Fin.last cfg2.N) ⊢ Pipeline.ΦA spec2 c := by
  rw [PhiA2_eq]; exact sep_mono (sep_mono (acc2_any V c _ _) .rfl) .rfl

end Cert.KernelIdeal.Hand

end
-- ==== Proof.KI.Run.lean ====
import proofs.«141569_j26164940767949_1_alg».proof.Proof.KI.R0Body
import proofs.«141569_j26164940767949_1_alg».proof.Proof.KI.R1Body
import proofs.«141569_j26164940767949_1_alg».proof.Proof.KI.R2Body
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)
abbrev E0 : (c : Dev nD) → (b : Ref sig .tc) → Buf (Elt F) ((c : Thread nD τ).loc b) := fun c b => W0 m c b

/-- The core's buffers at region 0's exit: its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (E0 m) c).arrAt_in w hw _).trans (A_eq0 (E0 m) c w))

def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

theorem W2_in (c : Dev nD) (w : Fin cfg1.W) (hw : (cfg1.win w).isOut = false) :
    W2 m c (Proc.devRef .tc (Pipeline.arrRef spec1 w)) = W1 m c (Proc.devRef .tc (Pipeline.arrRef spec1 w)) :=
  (W2_arr m c w).trans (((dat1 (E1 m) c).arrAt_in w hw _).trans (A_eq1 (E1 m) c w))

def W3 (c : Dev nD) : Valuation τ sig (Elt F) :=
  Pipeline.withArrays spec2 c (W2 m c) fun w => (dat2 (E2 m) c).arrAt w cfg2.N
theorem W3_arr (c : Dev nD) (w : Fin cfg2.W) :
    W3 m c (Proc.devRef .tc (Pipeline.arrRef spec2 w)) = (dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb

abbrev E3 : (c : Dev nD) → (b : Ref sig .tc) → Buf (Elt F) ((c : Thread nD τ).loc b) := fun c b => W3 m c b
theorem hF2 (c : Dev nD) (w : Fin cfg2.W) : (dat2 (E2 m) c).arrAt w cfg2.N = E3 m c (Pipeline.arrRef spec2 w) :=
  (W3_arr m c w).symm
theorem hrest2 (c : Dev nD) : ∀ b, b ∉ Finset.univ.image (Pipeline.arrRef spec2) → E3 m c b = E2 m c b :=
  fun b hb => W3_of_ne m c b fun w e => hb (Finset.mem_image.mpr ⟨w, Finset.mem_univ _, e⟩)

theorem W3_in (c : Dev nD) (w : Fin cfg2.W) (hw : (cfg2.win w).isOut = false) :
    W3 m c (Proc.devRef .tc (Pipeline.arrRef spec2 w)) = W2 m c (Proc.devRef .tc (Pipeline.arrRef spec2 w)) :=
  (W3_arr m c w).trans (((dat2 (E2 m) c).arrAt_in w hw _).trans (A_eq2 (E2 m) c w))

theorem W3_main_arg0 (c : Dev nD) : W3 m c (Proc.devRef .tc main_arg0) = m ((c : Thread nD τ).loc main_arg0) :=
  ((W3_in m c 0 rfl)).trans (((W2_in m c 0 rfl)).trans ((W1_in m c 0 rfl)))
theorem W3_main_arg1 (c : Dev nD) : W3 m c (Proc.devRef .tc main_arg1) = m ((c : Thread nD τ).loc main_arg1) :=
  ((W3_of_ne m c main_arg1 (by decide))).trans (((W2_of_ne m c main_arg1 (by decide))).trans ((W1_in m c 1 rfl)))
theorem W3_main_arg2 (c : Dev nD) : W3 m c (Proc.devRef .tc main_arg2) = m ((c : Thread nD τ).loc main_arg2) :=
  ((W3_of_ne m c main_arg2 (by decide))).trans (((W2_of_ne m c main_arg2 (by decide))).trans ((W1_in m c 2 rfl)))
theorem W3_main_arg3 (c : Dev nD) : W3 m c (Proc.devRef .tc main_arg3) = m ((c : Thread nD τ).loc main_arg3) :=
  ((W3_of_ne m c main_arg3 (by decide))).trans (((W2_in m c 2 rfl)).trans ((W1_of_ne m c main_arg3 (by decide))))
theorem W3_main_arg4 (c : Dev nD) : W3 m c (Proc.devRef .tc main_arg4) = m ((c : Thread nD τ).loc main_arg4) :=
  ((W3_in m c 2 rfl)).trans (((W2_of_ne m c main_arg4 (by decide))).trans ((W1_of_ne m c main_arg4 (by decide))))
theorem W3_main_v2 (c : Dev nD) : W3 m c (Proc.devRef .tc main_v2) = (dat2 (E2 m) c).arrAt 3 cfg2.N := W3_arr m c 3

theorem E1_main_v0 (c : Dev nD) : E1 m c main_v0 = (dat0 (E0 m) c).arrAt 3 cfg0.N := W1_arr m c 3
theorem E2_main_v1 (c : Dev nD) : E2 m c main_v1 = (dat1 (E1 m) c).arrAt 3 cfg1.N := W2_arr m c 3
theorem E1_main_arg0 (c : Dev nD) : E1 m c main_arg0 = m ((c : Thread nD τ).loc main_arg0) := W1_in m c 0 rfl
theorem E2_main_arg0 (c : Dev nD) : E2 m c main_arg0 = m ((c : Thread nD τ).loc main_arg0) := (W2_in m c 0 rfl).trans (W1_in m c 0 rfl)
theorem E1_main_arg3 (c : Dev nD) : E1 m c main_arg3 = m ((c : Thread nD τ).loc main_arg3) := W1_of_ne m c main_arg3 (by decide)
theorem E2_main_arg4 (c : Dev nD) : E2 m c main_arg4 = m ((c : Thread nD τ).loc main_arg4) := (W2_of_ne m c main_arg4 (by decide)).trans (W1_of_ne m c main_arg4 (by decide))

abbrev adm : (p : Fin 3) → (pcfgs (F := F) p).Adm := fun p => (cfgs p).toPCfg_adm

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W3 m c) ∗ ∃ r, prngReg c r)

set_option backward.isDefEq.respectTransparency.types false in
/-- Region `p` as a segment, entered with every unscoped buffer at `V` and left with them at `V'`: its arrays are split out
    of the unscoped buffers at entry and put back at the exit contents; the generator register and the scoped rest go
    into the region's invariant and come back out; nothing is owed. -/
def mkReg (p : Fin 3) (launch : Pipeline.LaunchFacts (nD := nD) (τ := τ) cfgs p) (V V' : Dev nD → Valuation τ sig (Elt F))
    (hbody : ∀ c, BodyObligation (pdats m p c) (defs₀ (F := F)) 𝒱₀ () Set.univ)
    (hq : ∀ c w, (pdats m p c).q w = fullShare) (howed : ∀ c t, (pdats m p c).owed t = 0) (hrec : ∀ c t, (pdats m p c).recorded t = Set.univ)
    (hA : ∀ c w, (pdats m p c).A w = V c (Pipeline.arrRef (cfgs p).spec w))
    (hin : ∀ c, Pipeline.ΦA (cfgs p).spec c ⊢ (pdats m p c).Φ 0)
    (hout : ∀ c, (pdats m p c).Φ (Fin.last _) ⊢ Pipeline.ΦA (cfgs p).spec c)
    (hF : ∀ c w, (pdats m p c).arrAt w (cfgs p).N = V' c (Pipeline.arrRef (cfgs p).spec w))
    (hrest : ∀ c, ∀ b, b ∉ Finset.univ.image (Pipeline.arrRef (cfgs p).spec) → V' c (Proc.devRef .tc b) = V c (Proc.devRef .tc b))
    (post : Dev nD → sProp 𝕄) (hpost : ∀ c : Dev nD, iprop(StableHlo.held (c : Thread nD τ) (Pipeline.ucRefs τ sig) (V' c) ∗ R c) ⊢ post c) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm (pdats m) launch.win launch.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    have h := hout c
    unfold Pipeline.ΦA at h
    rw [Pipeline.ownSems0_none]
    iintro Hphi
    ihave H := h $$ Hphi
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => V c b) (fun b => V' c b) ((pdats m p c).arrAt · (cfgs p).N) (hF c) (hrest c)
    rw [Pipeline.unscopedBufs_held] at hjoin
    iintro ⟨Ha, HO, HY, Hrest⟩
    imodintro
    iapply hpost c
    isplitl [Ha Hrest]
    · iapply hjoin; isplitl [Ha] <;> iassumption
    isplitl [HY]; · iexact HY
    unfold Pipeline.Dat.owesAt Pipeline.owesWithin
    rw [howed c _]
    icases HO with ⟨%W, -, HO⟩; iexists W; iexact HO

def reg0 := mkReg m 0 launch0 (W0 m) (W1 m) (body_obligation0 (E0 m)) (fun _ _ => rfl) (fun _ _ => rfl) (fun _ _ => rfl) (fun _ _ => rfl)
  (hin0 (E0 m)) (hout0 (E0 m)) (hF0 m) (hrest0 m) _ fun _ => .rfl
def reg1 := mkReg m 1 launch1 (W1 m) (W2 m) (body_obligation1 (E1 m)) (fun _ _ => rfl) (fun _ _ => rfl) (fun _ _ => rfl) (fun _ _ => rfl)
  (hin1 (E1 m)) (hout1 (E1 m)) (hF1 m) (hrest1 m) _ fun _ => .rfl
def reg2 := mkReg m 2 launch2 (W2 m) (W3 m) (body_obligation2 (E2 m)) (fun _ _ => rfl) (fun _ _ => rfl) (fun _ _ => rfl) (fun _ _ => rfl)
  (hin2 (E2 m)) (hout2 (E2 m)) (hF2 m) (hrest2 m) (fun c => iprop(Tₙ m c ∗ ∃ W, owes (c : Thread nD τ) (0 : CellTallies nD τ sig Unit) W)) fun c => by
    iintro ⟨Hh, Hp, HO⟩
    isplitl [Hh Hp]
    · isplitl [Hh]; · iexact Hh
      iexact Hp
    iexact HO

abbrev segs : List (Pipeline.Seg (pcfgs (F := F)) adm (pdats m) () defs₀ 𝒱₀ L lv) :=
  [ .region (reg0 m), .region (reg1 m), .region (reg2 m) ]

set_option backward.isDefEq.respectTransparency.types false in

/-- From any memory with zero counters every weakly fair execution terminates, nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) (reg2 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the result named: the result array ends at what the third region's write-backs leave, and every argument array ends as launched. -/
theorem run_result : θ_run defs (onTc (τ := τ) (main (F := F))) ⟨m, fun _ => 0, ρ⟩ (fun r => ∀ c : Dev nD,
      r.2.mem ((c.tc : Thread nD τ).loc main_v2) = (dat2 (E2 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Hand

end
-- ==== Proof.KI.R0Pieces.lean ====
import proofs.«141569_j26164940767949_1_alg».proof.Proof.KI.R0Body
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl

section Point

variable (c : Dev nD) (t : Fin cfg0.N) (x0 : Vec F S2048x1024 .f32) (x1 : Vec F S1024x64 .f32) (x2 : Vec F S64x64 .f32)

/-- At contraction step 0 the accumulator is stored whole twice, the zero splat and then the update of the splat read
    back: the later store covers, and its payload reads the earlier store's. -/
theorem soutA0_eq (h0 : t.val % 16 = 0) (h1 : ¬t.val % 16 = 15) :
    soutA0 c t x0 x1 x2 h0 h1 = k0_pay2 x0 x1 (k0_pay1 (F := F)) := by
  unfold soutA0
  rw [View.read_writes_eq_canon _ _ _ (scoverA0 c t x0 x1 x2 h0 h1)]
  unfold runA0 kernelRun0_A
  dsimp only
  sl_unfold_words
  rw [View.canon_cons_unit_zero (S := S2048x64) hz2, View.readCov_unit_zero (S := S2048x64) _ hz2]
  simp only [View.readAt_eq_ld, (hs0_0 t).read_unread, (hs0_1 t).read_unread, (hs0_2 t).read_unread, (hs0_3 t).read_unread, (Memref.isWhole_whole cc0_scratch0).read_unread, View.ld_unit_zero (S := S2048x1024) hz2, View.ld_unit_zero (S := S1024x64) hz2, View.ld_unit_zero (S := S64x64) hz2, View.ld_unit_zero (S := S2048x64) hz2, View.ld_unit_zero (S := S2048x64) hz2, View.readCov_unit_zero (S := S2048x64) _ hz2]

/-- At a later contraction step the accumulator is stored whole once: the update of what it held. -/
theorem soutB0_eq (h0 : ¬t.val % 16 = 0) (h1 : ¬t.val % 16 = 15) (xs0 : Vec F S2048x64 .f32) :
    soutB0 c t x0 x1 x2 h0 h1 xs0 = k0_pay2 x0 x1 xs0 := by
  unfold soutB0
  rw [View.read_writes_eq_canon _ _ _ (scoverB0 c t x0 x1 x2 h0 h1 xs0)]
  unfold runB0 kernelRun0_B
  dsimp only
  sl_unfold_words
  rw [View.canon_unit_zero (S := S2048x64) hz2]
  simp only [View.readAt_eq_ld, (hs0_0 t).read_unread, (hs0_1 t).read_unread, (hs0_2 t).read_unread, (hs0_3 t).read_unread, (Memref.isWhole_whole cc0_scratch0).read_unread, View.ld_unit_zero (S := S2048x1024) hz2, View.ld_unit_zero (S := S1024x64) hz2, View.ld_unit_zero (S := S64x64) hz2, View.ld_unit_zero (S := S2048x64) hz2, View.ld_unit_zero (S := S2048x64) hz2, View.readCov_unit_zero (S := S2048x64) _ hz2]

theorem soutC0_eq (h0 : ¬t.val % 16 = 0) (h1 : t.val % 16 = 15) (xs0 : Vec F S2048x64 .f32) :
    soutC0 c t x0 x1 x2 h0 h1 xs0 = k0_pay2 x0 x1 xs0 := by
  unfold soutC0
  rw [View.read_writes_eq_canon _ _ _ (scoverC0 c t x0 x1 x2 h0 h1 xs0)]
  unfold runC0 kernelRun0_C
  dsimp only
  sl_unfold_words
  rw [View.canon_unit_zero (S := S2048x64) hz2]
  simp only [View.readAt_eq_ld, (hs0_0 t).read_unread, (hs0_1 t).read_unread, (hs0_2 t).read_unread, (hs0_3 t).read_unread, (Memref.isWhole_whole cc0_scratch0).read_unread, View.ld_unit_zero (S := S2048x1024) hz2, View.ld_unit_zero (S := S1024x64) hz2, View.ld_unit_zero (S := S64x64) hz2, View.ld_unit_zero (S := S2048x64) hz2, View.ld_unit_zero (S := S2048x64) hz2, View.readCov_unit_zero (S := S2048x64) _ hz2]

/-- At the last contraction step the output block is stored whole once: the epilogue of the weights and of the
    accumulator read back after its one whole store. -/
theorem outC0_eq (h0 : ¬t.val % 16 = 0) (h1 : t.val % 16 = 15) (xs0 : Vec F S2048x64 .f32) :
    outC0 c t x0 x1 x2 h0 h1 xs0 = k0_pay3 x2 (k0_pay2 x0 x1 xs0) := by
  unfold outC0
  rw [View.read_writes_eq_canon _ _ _ (coverC0 c t x0 x1 x2 h0 h1 xs0)]
  unfold runC0 kernelRun0_C
  dsimp only
  sl_unfold_words
  rw [View.canon_unit_zero (S := S2048x64) hz2]
  simp only [View.readAt_eq_ld, (hs0_0 t).read_unread, (hs0_1 t).read_unread, (hs0_2 t).read_unread, (hs0_3 t).read_unread, (Memref.isWhole_whole cc0_scratch0).read_unread, View.ld_unit_zero (S := S2048x1024) hz2, View.ld_unit_zero (S := S1024x64) hz2, View.ld_unit_zero (S := S64x64) hz2, View.ld_unit_zero (S := S2048x64) hz2, View.ld_unit_zero (S := S2048x64) hz2, View.readCov_unit_zero (S := S2048x64) _ hz2]

end Point

variable (V : (c : Dev nD) → (b : Ref sig .tc) → Buf (Elt F) ((c : Thread nD τ).loc b)) (c : Dev nD) (t : Fin cfg0.N)

/-- The accumulator after a row block's first contraction step: the step's update of zero. -/
theorem acc0_first (h0 : t.val % 16 = 0) :
    (outsAt0 V c t.val t.isLt).2 = k0_pay2 (iblk0 V c 0 t) (iblk0 V c 1 t) (k0_pay1 (F := F)) := by
  rw [outsAt0_A V c t h0]; dsimp only; exact soutA0_eq (F := F) c t _ _ _ h0 _

/-- The accumulator after a later contraction step: the step's update of what the point before left. -/
theorem acc0_next (h0 : ¬t.val % 16 = 0) :
    (outsAt0 V c t.val t.isLt).2 = k0_pay2 (iblk0 V c 0 t) (iblk0 V c 1 t) (outsAt0 V c (t.val - 1) (Nat.lt_of_le_of_lt (Nat.sub_le _ _) t.isLt)).2 := by
  by_cases h1 : t.val % 16 = 15
  · rw [outsAt0_C V c t h0 h1]; dsimp only; exact soutC0_eq (F := F) c t _ _ _ h0 h1 _
  · rw [outsAt0_B V c t h0 h1]; dsimp only; exact soutB0_eq (F := F) c t _ _ _ h0 h1 _

/-- At the last contraction step the output block is the epilogue of the weights' block and of the accumulator as this
    very step leaves it. -/
theorem out0_last (h1 : t.val % 16 = 15) :
    (outsAt0 V c t.val t.isLt).1 = k0_pay3 (iblk0 V c 2 t) (outsAt0 V c t.val t.isLt).2 := by
  have h0 : ¬t.val % 16 = 0 := by omega
  rw [outsAt0_C V c t h0 h1]; dsimp only
  exact (outC0_eq (F := F) c t _ _ _ h0 h1 _).trans (congrArg _ (soutC0_eq (F := F) c t _ _ _ h0 h1 _).symm)

end Cert.KernelIdeal.Hand

end
-- ==== Proof.KI.Pay.lean ====
import proofs.«141569_j26164940767949_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

private theorem lhs_2048x1024_1024x64_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
private theorem lhs_2048x1024_1024x64_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
private theorem rhs_2048x1024_1024x64_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
private theorem rhs_2048x1024_1024x64_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- A matrix product into a zero accumulator is the plain sum of products over the contracted axis. -/
private theorem mm_2048x1024_1024x64 (lhs : FVec Ideal S2048x1024 .bf16) (rhs : FVec Ideal S1024x64 .bf16) (r : Fin 2048) (j : Fin 64) :
    FloatOps.matmul dot_S2048x1024_S1024x64_S2048x64_1_0_0_1_n_n none lhs rhs (constant S2048x64 .f32 0x00000000#32) (ix2 r j)
      = ∑ l : Fin 1024, lhs (ix2 r l) * rhs (ix2 l j) := by
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 r j) ((contrEquiv1 dot_S2048x1024_S1024x64_S2048x64_1_0_0_1_n_n 1024 rfl rfl).symm k) = ix2 r k := funext fun a => Fin.ext (by
    match a with
    | ⟨0, _⟩ => exact lhs_2048x1024_1024x64_0 _ _
    | ⟨1, _⟩ => exact (lhs_2048x1024_1024x64_1 _ _).trans hk)
  have er : dot_S2048x1024_S1024x64_S2048x64_1_0_0_1_n_n.rhsIdx (ix2 r j) ((contrEquiv1 dot_S2048x1024_S1024x64_S2048x64_1_0_0_1_n_n 1024 rfl rfl).symm k) = ix2 k j := funext fun a => Fin.ext (by
    match a with
    | ⟨0, _⟩ => exact (rhs_2048x1024_1024x64_0 _ _).trans hk
    | ⟨1, _⟩ => exact rhs_2048x1024_1024x64_1 _ _)
  rw [el, er]

private theorem lhs_2048x64_64x64_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
private theorem lhs_2048x64_64x64_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
private theorem rhs_2048x64_64x64_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
private theorem rhs_2048x64_64x64_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

private theorem mm_2048x64_64x64 (lhs : FVec Ideal S2048x64 .bf16) (rhs : FVec Ideal S64x64 .bf16) (r : Fin 2048) (j : Fin 64) :
    FloatOps.matmul dot_S2048x64_S64x64_S2048x64_1_0_0_1_n_n none lhs rhs (constant S2048x64 .f32 0x00000000#32) (ix2 r j)
      = ∑ l : Fin 64, lhs (ix2 r l) * rhs (ix2 l j) := by
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r j) ((contrEquiv1 dot_S2048x64_S64x64_S2048x64_1_0_0_1_n_n 64 rfl rfl).symm k) = ix2 r k := funext fun a => Fin.ext (by
    match a with
    | ⟨0, _⟩ => exact lhs_2048x64_64x64_0 _ _
    | ⟨1, _⟩ => exact (lhs_2048x64_64x64_1 _ _).trans hk)
  have er : dot_S2048x64_S64x64_S2048x64_1_0_0_1_n_n.rhsIdx (ix2 r j) ((contrEquiv1 dot_S2048x64_S64x64_S2048x64_1_0_0_1_n_n 64 rfl rfl).symm k) = ix2 k j := funext fun a => Fin.ext (by
    match a with
    | ⟨0, _⟩ => exact (rhs_2048x64_64x64_0 _ _).trans hk
    | ⟨1, _⟩ => exact rhs_2048x64_64x64_1 _ _)
  rw [el, er]

private theorem lhs_2048x64_64x32_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide), dif_pos (show (0 : Fin S2048x64.rank) ∈ dot_S2048x64_S64x32_S2048x32_1_0_0_1_n_n.lhsNonContracting by decide)]
  rfl
private theorem lhs_2048x64_64x32_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
private theorem rhs_2048x64_64x32_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
private theorem rhs_2048x64_64x32_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide), dif_pos (show (1 : Fin S64x32.rank) ∈ dot_S2048x64_S64x32_S2048x32_1_0_0_1_n_n.rhsNonContracting by decide)]
  rfl

private theorem mm_2048x64_64x32 (lhs : FVec Ideal S2048x64 .bf16) (rhs : FVec Ideal S64x32 .bf16) (r : Fin 2048) (j : Fin 32) :
    FloatOps.matmul dot_S2048x64_S64x32_S2048x32_1_0_0_1_n_n none lhs rhs (constant S2048x32 .f32 0x00000000#32) (ix2 r j)
      = ∑ l : Fin 64, lhs (ix2 r l) * rhs (ix2 l j) := by
  rw [Ideal.matmul_constant_zero_apply, ← Equiv.sum_comp (contrEquiv1 dot_S2048x64_S64x32_S2048x32_1_0_0_1_n_n 64 rfl rfl).symm]
  refine Finset.sum_congr rfl fun k _ => ?_
  have hk := contrEquiv1_symm_val dot_S2048x64_S64x32_S2048x32_1_0_0_1_n_n 64 rfl rfl k
  have el : dot_S2048x64_S64x32_S2048x32_1_0_0_1_n_n.lhsIdx (ix2 r j) ((contrEquiv1 dot_S2048x64_S64x32_S2048x32_1_0_0_1_n_n 64 rfl rfl).symm k) = ix2 r k := funext fun a => Fin.ext (by
    match a with
    | ⟨0, _⟩ => exact lhs_2048x64_64x32_0 _ _
    | ⟨1, _⟩ => exact (lhs_2048x64_64x32_1 _ _).trans hk)
  have er : dot_S2048x64_S64x32_S2048x32_1_0_0_1_n_n.rhsIdx (ix2 r j) ((contrEquiv1 dot_S2048x64_S64x32_S2048x32_1_0_0_1_n_n 64 rfl rfl).symm k) = ix2 k j := funext fun a => Fin.ext (by
    match a with
    | ⟨0, _⟩ => exact (rhs_2048x64_64x32_0 _ _).trans hk
    | ⟨1, _⟩ => exact rhs_2048x64_64x32_1 _ _)
  rw [el, er]

private theorem lhs_2048x1024_1024x32_0 (i : S2048x32.Idx) (q : dot_S2048x1024_S1024x32_S2048x32_1_0_0_1_n_n.contr.Idx) :
    (dot_S2048x1024_S1024x32_S2048x32_1_0_0_1_n_n.lhsIdx i q 0).val = (i 0).val := by
  unfold DotDims.lhsIdx
  rw [dif_neg (show ¬(0 : Fin S2048x1024.rank) ∈ dot_S2048x1024_S1024x32_S2048x32_1_0_0_1_n_n.lhsBatch by decide), dif_pos (show (0 : Fin S2048x1024.rank) ∈ dot_S2048x1024_S1024x32_S2048x32_1_0_0_1_n_n.lhsNonContracting by decide)]
  rfl
private theorem lhs_2048x1024_1024x32_1 (i : S2048x32.Idx) (q : dot_S2048x1024_S1024x32_S2048x32_1_0_0_1_n_n.contr.Idx) :
    (dot_S2048x1024_S1024x32_S2048x32_1_0_0_1_n_n.lhsIdx i q 1).val = (q ⟨0, by decide⟩).val :=
  dot_S2048x1024_S1024x32_S2048x32_1_0_0_1_n_n.lhsIdx_val_of_single rfl i q
private theorem rhs_2048x1024_1024x32_0 (i : S2048x32.Idx) (q : dot_S2048x1024_S1024x32_S2048x32_1_0_0_1_n_n.contr.Idx) :
    (dot_S2048x1024_S1024x32_S2048x32_1_0_0_1_n_n.rhsIdx i q 0).val = (q ⟨0, by decide⟩).val :=
  dot_S2048x1024_S1024x32_S2048x32_1_0_0_1_n_n.rhsIdx_val_of_single rfl i q
private theorem rhs_2048x1024_1024x32_1 (i : S2048x32.Idx) (q : dot_S2048x1024_S1024x32_S2048x32_1_0_0_1_n_n.contr.Idx) :
    (dot_S2048x1024_S1024x32_S2048x32_1_0_0_1_n_n.rhsIdx i q 1).val = (i 1).val := by
  unfold DotDims.rhsIdx
  rw [dif_neg (show ¬(1 : Fin S1024x32.rank) ∈ dot_S2048x1024_S1024x32_S2048x32_1_0_0_1_n_n.rhsBatch by decide), dif_pos (show (1 : Fin S1024x32.rank) ∈ dot_S2048x1024_S1024x32_S2048x32_1_0_0_1_n_n.rhsNonContracting by decide)]
  rfl

private theorem mm_2048x1024_1024x32 (lhs : FVec Ideal S2048x1024 .bf16) (rhs : FVec Ideal S1024x32 .bf16) (r : Fin 2048) (j : Fin 32) :
    FloatOps.matmul dot_S2048x1024_S1024x32_S2048x32_1_0_0_1_n_n none lhs rhs (constant S2048x32 .f32 0x00000000#32) (ix2 r j)
      = ∑ l : Fin 1024, lhs (ix2 r l) * rhs (ix2 l j) := by
  rw [Ideal.matmul_constant_zero_apply, ← Equiv.sum_comp (contrEquiv1 dot_S2048x1024_S1024x32_S2048x32_1_0_0_1_n_n 1024 rfl rfl).symm]
  refine Finset.sum_congr rfl fun k _ => ?_
  have hk := contrEquiv1_symm_val dot_S2048x1024_S1024x32_S2048x32_1_0_0_1_n_n 1024 rfl rfl k
  have el : dot_S2048x1024_S1024x32_S2048x32_1_0_0_1_n_n.lhsIdx (ix2 r j) ((contrEquiv1 dot_S2048x1024_S1024x32_S2048x32_1_0_0_1_n_n 1024 rfl rfl).symm k) = ix2 r k := funext fun a => Fin.ext (by
    match a with
    | ⟨0, _⟩ => exact lhs_2048x1024_1024x32_0 _ _
    | ⟨1, _⟩ => exact (lhs_2048x1024_1024x32_1 _ _).trans hk)
  have er : dot_S2048x1024_S1024x32_S2048x32_1_0_0_1_n_n.rhsIdx (ix2 r j) ((contrEquiv1 dot_S2048x1024_S1024x32_S2048x32_1_0_0_1_n_n 1024 rfl rfl).symm k) = ix2 k j := funext fun a => Fin.ext (by
    match a with
    | ⟨0, _⟩ => exact (rhs_2048x1024_1024x32_0 _ _).trans hk
    | ⟨1, _⟩ => exact rhs_2048x1024_1024x32_1 _ _)
  rw [el, er]

private theorem lhs_2048x32_32x32_0 (i : S2048x32.Idx) (q : dot_S2048x32_S32x32_S2048x32_1_0_0_1_n_n.contr.Idx) :
    (dot_S2048x32_S32x32_S2048x32_1_0_0_1_n_n.lhsIdx i q 0).val = (i 0).val := by
  unfold DotDims.lhsIdx
  rw [dif_neg (show ¬(0 : Fin S2048x32.rank) ∈ dot_S2048x32_S32x32_S2048x32_1_0_0_1_n_n.lhsBatch by decide), dif_pos (show (0 : Fin S2048x32.rank) ∈ dot_S2048x32_S32x32_S2048x32_1_0_0_1_n_n.lhsNonContracting by decide)]
  rfl
private theorem lhs_2048x32_32x32_1 (i : S2048x32.Idx) (q : dot_S2048x32_S32x32_S2048x32_1_0_0_1_n_n.contr.Idx) :
    (dot_S2048x32_S32x32_S2048x32_1_0_0_1_n_n.lhsIdx i q 1).val = (q ⟨0, by decide⟩).val :=
  dot_S2048x32_S32x32_S2048x32_1_0_0_1_n_n.lhsIdx_val_of_single rfl i q
private theorem rhs_2048x32_32x32_0 (i : S2048x32.Idx) (q : dot_S2048x32_S32x32_S2048x32_1_0_0_1_n_n.contr.Idx) :
    (dot_S2048x32_S32x32_S2048x32_1_0_0_1_n_n.rhsIdx i q 0).val = (q ⟨0, by decide⟩).val :=
  dot_S2048x32_S32x32_S2048x32_1_0_0_1_n_n.rhsIdx_val_of_single rfl i q
private theorem rhs_2048x32_32x32_1 (i : S2048x32.Idx) (q : dot_S2048x32_S32x32_S2048x32_1_0_0_1_n_n.contr.Idx) :
    (dot_S2048x32_S32x32_S2048x32_1_0_0_1_n_n.rhsIdx i q 1).val = (i 1).val := by
  unfold DotDims.rhsIdx
  rw [dif_neg (show ¬(1 : Fin S32x32.rank) ∈ dot_S2048x32_S32x32_S2048x32_1_0_0_1_n_n.rhsBatch by decide), dif_pos (show (1 : Fin S32x32.rank) ∈ dot_S2048x32_S32x32_S2048x32_1_0_0_1_n_n.rhsNonContracting by decide)]
  rfl

private theorem mm_2048x32_32x32 (lhs : FVec Ideal S2048x32 .bf16) (rhs : FVec Ideal S32x32 .bf16) (r : Fin 2048) (j : Fin 32) :
    FloatOps.matmul dot_S2048x32_S32x32_S2048x32_1_0_0_1_n_n none lhs rhs (constant S2048x32 .f32 0x00000000#32) (ix2 r j)
      = ∑ l : Fin 32, lhs (ix2 r l) * rhs (ix2 l j) := by
  rw [Ideal.matmul_constant_zero_apply, ← Equiv.sum_comp (contrEquiv1 dot_S2048x32_S32x32_S2048x32_1_0_0_1_n_n 32 rfl rfl).symm]
  refine Finset.sum_congr rfl fun k _ => ?_
  have hk := contrEquiv1_symm_val dot_S2048x32_S32x32_S2048x32_1_0_0_1_n_n 32 rfl rfl k
  have el : dot_S2048x32_S32x32_S2048x32_1_0_0_1_n_n.lhsIdx (ix2 r j) ((contrEquiv1 dot_S2048x32_S32x32_S2048x32_1_0_0_1_n_n 32 rfl rfl).symm k) = ix2 r k := funext fun a => Fin.ext (by
    match a with
    | ⟨0, _⟩ => exact lhs_2048x32_32x32_0 _ _
    | ⟨1, _⟩ => exact (lhs_2048x32_32x32_1 _ _).trans hk)
  have er : dot_S2048x32_S32x32_S2048x32_1_0_0_1_n_n.rhsIdx (ix2 r j) ((contrEquiv1 dot_S2048x32_S32x32_S2048x32_1_0_0_1_n_n 32 rfl rfl).symm k) = ix2 k j := funext fun a => Fin.ext (by
    match a with
    | ⟨0, _⟩ => exact (rhs_2048x32_32x32_0 _ _).trans hk
    | ⟨1, _⟩ => exact rhs_2048x32_32x32_1 _ _)
  rw [el, er]

private theorem scalar_zero_f32 : (Scalar.ofBits (F := Ideal) .f32 0x00000000#32 : EReal) = 0 := by
  show Ideal.ofBits .f32 0x00000000#32 = 0
  exact Ideal.ofBits_zero_f32

private theorem transpose_ix2 {α : Type} {n0 n1 : Nat} (x : (⟨2, ![n0, n1]⟩ : Shape).Idx → α)
    (h : (⟨2, ![n0, n1]⟩ : Shape).Transposes [1, 0] (⟨2, ![n1, n0]⟩ : Shape)) (a : Fin n1) (b : Fin n0) :
    transpose (⟨2, ![n1, n0]⟩ : Shape) [1, 0] x h (ix2 a b) = x (ix2 b a) :=
  transpose_apply [1, 0] x h (ix2 a b) (ix2 b a) (fun c => by
    match c with
    | ⟨0, _⟩ => rfl
    | ⟨1, _⟩ => rfl)

/-- The reset stores zero. -/
theorem k0_pay1_apply (i : S2048x64.Idx) : k0_pay1 (F := Ideal) i = (0 : EReal) := by

  unfold k0_pay1
  rw [shapeCast_self, broadcast_apply]
  exact scalar_zero_f32

/-- The update adds to the accumulator the block product of A's block with the activations' block. -/
theorem k0_pay2_apply (x0 : Vec Ideal S2048x1024 .f32) (x1 : Vec Ideal S1024x64 .f32) (acc : Vec Ideal S2048x64 .f32) (r : Fin 2048) (j : Fin 64) :
    k0_pay2 x0 x1 acc (ix2 r j) = acc (ix2 r j) + ∑ l : Fin 1024, x0 (ix2 r l) * x1 (ix2 l j) := by

  unfold k0_pay2
  simp only [matmul]
  rw [shapeCast_self, addf_apply, mm_2048x1024_1024x64]
  rfl

/-- The epilogue contracts the accumulator's features against the weights' second axis and takes the maximum with zero. -/
theorem k0_pay3_apply (w : Vec Ideal S64x64 .f32) (acc : Vec Ideal S2048x64 .f32) (r : Fin 2048) (q : Fin 64) :
    k0_pay3 w acc (ix2 r q) = max (∑ j : Fin 64, acc (ix2 r j) * w (ix2 q j)) 0 := by

  unfold k0_pay3
  simp only [matmul]
  rw [maximumf_apply, mm_2048x64_64x64, broadcast_apply, scalar_zero_f32]
  refine congrArg (fun s => max s (0 : EReal)) (Finset.sum_congr rfl fun l _ => ?_)
  rw [truncf_apply]
  exact congrArg (fun t => acc (ix2 r l) * t) (transpose_ix2 (n0 := 64) (n1 := 64) _ _ l q)

theorem k1_pay1_apply (i : S2048x64.Idx) : k1_pay1 (F := Ideal) i = (0 : EReal) := by

  unfold k1_pay1
  rw [shapeCast_self, broadcast_apply]
  exact scalar_zero_f32

theorem k1_pay2_apply (x0 : Vec Ideal S2048x1024 .f32) (x1 : Vec Ideal S1024x64 .f32) (acc : Vec Ideal S2048x64 .f32) (r : Fin 2048) (j : Fin 64) :
    k1_pay2 x0 x1 acc (ix2 r j) = acc (ix2 r j) + ∑ l : Fin 1024, x0 (ix2 r l) * x1 (ix2 l j) := by

  unfold k1_pay2
  simp only [matmul]
  rw [shapeCast_self, addf_apply, mm_2048x1024_1024x64, shapeCast_self]
  rfl

theorem k1_pay3_apply (w : Vec Ideal S32x64 .f32) (acc : Vec Ideal S2048x64 .f32) (r : Fin 2048) (q : Fin 32) :
    k1_pay3 w acc (ix2 r q) = max (∑ j : Fin 64, acc (ix2 r j) * w (ix2 q j)) 0 := by

  unfold k1_pay3
  simp only [matmul]
  rw [maximumf_apply, mm_2048x64_64x32, broadcast_apply, scalar_zero_f32]
  refine congrArg (fun s => max s (0 : EReal)) (Finset.sum_congr rfl fun l _ => ?_)
  rw [truncf_apply]
  exact congrArg (fun t => acc (ix2 r l) * t) (transpose_ix2 (n0 := 32) (n1 := 64) _ _ l q)

theorem k2_pay1_apply (i : S2048x32.Idx) : k2_pay1 (F := Ideal) i = (0 : EReal) := by

  unfold k2_pay1
  rw [shapeCast_self, broadcast_apply]
  exact scalar_zero_f32

theorem k2_pay2_apply (x0 : Vec Ideal S2048x1024 .f32) (x1 : Vec Ideal S1024x32 .f32) (acc : Vec Ideal S2048x32 .f32) (r : Fin 2048) (j : Fin 32) :
    k2_pay2 x0 x1 acc (ix2 r j) = acc (ix2 r j) + ∑ l : Fin 1024, x0 (ix2 r l) * x1 (ix2 l j) := by

  unfold k2_pay2
  simp only [matmul]
  rw [shapeCast_self, addf_apply, mm_2048x1024_1024x32, shapeCast_self]
  rfl

/-- The last layer's epilogue has no activation. -/
theorem k2_pay3_apply (w : Vec Ideal S32x32 .f32) (acc : Vec Ideal S2048x32 .f32) (r : Fin 2048) (q : Fin 32) :
    k2_pay3 w acc (ix2 r q) = ∑ j : Fin 32, acc (ix2 r j) * w (ix2 q j) := by

  unfold k2_pay3
  simp only [matmul]
  rw [mm_2048x32_32x32]
  refine Finset.sum_congr rfl fun l _ => ?_
  rw [truncf_apply]
  exact congrArg (fun t => acc (ix2 r l) * t) (transpose_ix2 (n0 := 32) (n1 := 32) _ _ l q)

end Cert.KernelIdeal.Hand

end
-- ==== Proof.Spec.lean ====
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- Entry (r, q) of (A · h) · Wᵀ: the sum over the d features j of (row r of A against column j of h) times W[q, j]. -/
def layerAt (n d e : ℕ) (A : (⟨2, ![n, n]⟩ : Shape).Idx → EReal) (h : (⟨2, ![n, d]⟩ : Shape).Idx → EReal)
    (W : (⟨2, ![e, d]⟩ : Shape).Idx → EReal) (r : Fin n) (q : Fin e) : EReal :=
  ∑ j : Fin d, (∑ k : Fin n, A (ix2 r k) * h (ix2 k j)) * W (ix2 q j)

def layer (n d e : ℕ) (A : (⟨2, ![n, n]⟩ : Shape).Idx → EReal) (h : (⟨2, ![n, d]⟩ : Shape).Idx → EReal)
    (W : (⟨2, ![e, d]⟩ : Shape).Idx → EReal) : (⟨2, ![n, e]⟩ : Shape).Idx → EReal :=
  fun i => layerAt n d e A h W ⟨(i 0).val, idx2_lt0 i⟩ ⟨(i 1).val, idx2_lt1 i⟩

def layerRelu (n d e : ℕ) (A : (⟨2, ![n, n]⟩ : Shape).Idx → EReal) (h : (⟨2, ![n, d]⟩ : Shape).Idx → EReal)
    (W : (⟨2, ![e, d]⟩ : Shape).Idx → EReal) : (⟨2, ![n, e]⟩ : Shape).Idx → EReal :=
  fun i => max (layer n d e A h W i) 0

theorem layer_ix2 (n d e : ℕ) (A : (⟨2, ![n, n]⟩ : Shape).Idx → EReal) (h : (⟨2, ![n, d]⟩ : Shape).Idx → EReal)
    (W : (⟨2, ![e, d]⟩ : Shape).Idx → EReal) (r : Fin n) (q : Fin e) :
    layer n d e A h W (ix2 r q) = layerAt n d e A h W r q := rfl

theorem layerRelu_ix2 (n d e : ℕ) (A : (⟨2, ![n, n]⟩ : Shape).Idx → EReal) (h : (⟨2, ![n, d]⟩ : Shape).Idx → EReal)
    (W : (⟨2, ![e, d]⟩ : Shape).Idx → EReal) (r : Fin n) (q : Fin e) :
    layerRelu n d e A h W (ix2 r q) = max (layerAt n d e A h W r q) 0 := rfl

/-- A sum over nb · bs positions is the sum over the nb blocks of the sums inside each block of bs. -/
theorem sum_blocks {M : Type*} [AddCommMonoid M] (nb bs : ℕ) (f : Fin (nb * bs) → M) :
    ∑ n : Fin (nb * bs), f n
      = ∑ s : Fin nb, ∑ l : Fin bs, f ⟨bs * s.val + l.val, by
          have hs := s.isLt; have hl := l.isLt
          calc bs * s.val + l.val < bs * s.val + bs := by omega
            _ = bs * (s.val + 1) := by ring
            _ ≤ bs * nb := Nat.mul_le_mul_left _ hs
            _ = nb * bs := Nat.mul_comm _ _⟩ := by
  rw [← (finProdFinEquiv (m := nb) (n := bs)).sum_comp f, Fintype.sum_prod_type]
  refine Finset.sum_congr rfl fun s _ => Finset.sum_congr rfl fun l _ => congrArg f (Fin.ext ?_)
  show l.val + bs * s.val = bs * s.val + l.val
  exact Nat.add_comm _ _

/-- The first k + 1 terms added one at a time from zero, in the order an accumulator is filled. -/
def blockFold {M : Type*} [AddCommMonoid M] (g : ℕ → M) : ℕ → M
  | 0 => 0 + g 0
  | k + 1 => blockFold g k + g (k + 1)

theorem blockFold_eq {M : Type*} [AddCommMonoid M] (g : ℕ → M) (k : ℕ) :
    blockFold g k = ∑ s ∈ Finset.range (k + 1), g s := by
  induction k with
  | zero => simp [blockFold]
  | succ k ih => rw [blockFold, ih, Finset.sum_range_succ _ (k + 1)]

end Cert.Spec

end
-- ==== Proof.KI.Val0.lean ====
import proofs.«141569_j26164940767949_1_alg».proof.Proof.KI.R0Pieces
import proofs.«141569_j26164940767949_1_alg».proof.Proof.KI.Pay
import proofs.«141569_j26164940767949_1_alg».proof.Proof.Spec
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Region0

variable (V : (c : Dev nD) → (b : Ref sig .tc) → Buf (Elt Ideal) ((c : Thread nD τ).loc b))

private abbrev arrA0 (c : Dev nD) : Vec Ideal S16384x16384 .f32 := V c main_arg0
private abbrev arrH0 (c : Dev nD) : Vec Ideal S16384x64 .f32 := V c main_arg1
private abbrev arrW0 (c : Dev nD) : Vec Ideal S64x64 .f32 := V c main_arg2
private abbrev blkA0 (c : Dev nD) (t : Fin cfg0.N) : Vec Ideal S2048x1024 .f32 := iblk0 V c 0 t
private abbrev blkH0 (c : Dev nD) (t : Fin cfg0.N) : Vec Ideal S1024x64 .f32 := iblk0 V c 1 t

/-- The block index of each window at grid point t = 16·i + k. -/
private theorem idxFacts0 : ∀ t : Fin cfg0.N, win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = 0 :=
  (by decide +kernel : ∀ t : Fin grid0.N, _)

private theorem blkA0_apply (c : Dev nD) (t : Fin cfg0.N) (y0 : Fin 2048) (y1 : Fin 1024) (R K : Fin 16384)
    (hR : R.val = 2048 * (t.val / 16) + y0.val) (hK : K.val = 1024 * (t.val % 16) + y1.val) :
    blkA0 V c t (ix2 y0 y1) = arrA0 V c (ix2 R K) := by
  obtain ⟨e0, e1, -⟩ := idxFacts0 t
  show V c main_arg0 (((cfg0.win 0).blk t).view.emb (ix2 y0 y1)) = V c main_arg0 (ix2 R K)
  congr 1
  funext a; apply Fin.ext
  match a with
  | ⟨0, _⟩ => show win0_0.index t (0 : Fin 2) * 2048 + 1 * y0.val = R.val; omega
  | ⟨1, _⟩ => show win0_0.index t (1 : Fin 2) * 1024 + 1 * y1.val = K.val; omega

private theorem blkH0_apply (c : Dev nD) (t : Fin cfg0.N) (y0 : Fin 1024) (y1 : Fin 64) (K : Fin 16384)
    (hK : K.val = 1024 * (t.val % 16) + y0.val) :
    blkH0 V c t (ix2 y0 y1) = arrH0 V c (ix2 K y1) := by
  obtain ⟨-, -, e0, e1, -⟩ := idxFacts0 t
  show V c main_arg1 (((cfg0.win 1).blk t).view.emb (ix2 y0 y1)) = V c main_arg1 (ix2 K y1)
  congr 1
  funext a; apply Fin.ext
  match a with
  | ⟨0, _⟩ => show win0_1.index t (0 : Fin 2) * 1024 + 1 * y0.val = K.val; omega
  | ⟨1, _⟩ => show win0_1.index t (1 : Fin 2) * 64 + 1 * y1.val = y1.val; omega

private theorem blkW0_apply (c : Dev nD) (t : Fin cfg0.N) (y0 : Fin 64) (y1 : Fin 64) :
    iblk0 V c 2 t (ix2 y0 y1) = arrW0 V c (ix2 y0 y1) := by
  obtain ⟨-, -, -, -, e0, e1, -⟩ := idxFacts0 t
  show V c main_arg2 (((cfg0.win 2).blk t).view.emb (ix2 y0 y1)) = V c main_arg2 (ix2 y0 y1)
  congr 1
  funext a; apply Fin.ext
  match a with
  | ⟨0, _⟩ => show win0_2.index t (0 : Fin 2) * 64 + 1 * y0.val = y0.val; omega
  | ⟨1, _⟩ => show win0_2.index t (1 : Fin 2) * 64 + 1 * y1.val = y1.val; omega

private def atA0 (A : S16384x16384.Idx → EReal) (R K : ℕ) : EReal :=
  if h : R < 16384 ∧ K < 16384 then A (ix2 ⟨R, h.1⟩ ⟨K, h.2⟩) else 0

private def atH0 (H : S16384x64.Idx → EReal) (K : ℕ) (j : Fin 64) : EReal :=
  if h : K < 16384 then H (ix2 ⟨K, h⟩ j) else 0

/-- The product of block s of row R of A with block s of column j of the activations. -/
private def stepSum0 (A : S16384x16384.Idx → EReal) (H : S16384x64.Idx → EReal) (R : ℕ) (j : Fin 64) (s : ℕ) : EReal :=
  ∑ l : Fin 1024, atA0 A R (1024 * s + l.val) * atH0 H (1024 * s + l.val) j

private theorem fold0_eq_sum (A : S16384x16384.Idx → EReal) (H : S16384x64.Idx → EReal) (R : Fin 16384) (j : Fin 64) :
    Cert.Spec.blockFold (stepSum0 A H R.val j) 15 = ∑ k : Fin 16384, A (ix2 R k) * H (ix2 k j) := by
  rw [Cert.Spec.blockFold_eq, Finset.sum_range]
  refine Eq.trans ?_ (Cert.Spec.sum_blocks 16 1024 (fun k : Fin (16 * 1024) => A (ix2 R k) * H (ix2 k j))).symm
  refine Finset.sum_congr rfl fun s _ => ?_
  unfold stepSum0
  refine Finset.sum_congr rfl fun l _ => ?_
  have hs := s.isLt
  have hl := l.isLt
  unfold atA0 atH0
  rw [dif_pos (show R.val < 16384 ∧ 1024 * s.val + l.val < 16384 from ⟨R.isLt, by omega⟩),
    dif_pos (show 1024 * s.val + l.val < 16384 by omega)]

private theorem blk0_prod (c : Dev nD) (n : ℕ) (hn : n < cfg0.N) (r : Fin 2048) (j : Fin 64) :
    ∑ l : Fin 1024, blkA0 V c ⟨n, hn⟩ (ix2 r l) * blkH0 V c ⟨n, hn⟩ (ix2 l j)
      = stepSum0 (arrA0 V c) (arrH0 V c) (2048 * (n / 16) + r.val) j (n % 16) := by
  have hN : n < 128 := lt_of_lt_of_eq hn (show cfg0.N = 128 from N_0)
  have hr := r.isLt
  unfold stepSum0
  refine Finset.sum_congr rfl fun l _ => ?_
  have hl := l.isLt
  unfold atA0 atH0
  rw [dif_pos (show 2048 * (n / 16) + r.val < 16384 ∧ 1024 * (n % 16) + l.val < 16384 from ⟨by omega, by omega⟩),
    dif_pos (show 1024 * (n % 16) + l.val < 16384 by omega)]
  rw [blkA0_apply V c ⟨n, hn⟩ r l ⟨2048 * (n / 16) + r.val, by omega⟩ ⟨1024 * (n % 16) + l.val, by omega⟩ rfl rfl,
    blkH0_apply V c ⟨n, hn⟩ l j ⟨1024 * (n % 16) + l.val, by omega⟩ rfl]

/-- After point n = 16 i + k the accumulator's entry (r, j) is steps 0 … k of row 2048 i + r's contraction against column j of the activations, added in order from zero. -/
private theorem acc0_inv (c : Dev nD) : ∀ (n : ℕ) (hn : n < cfg0.N) (r : Fin 2048) (j : Fin 64),
    (outsAt0 V c n hn).2 (ix2 r j)
      = Cert.Spec.blockFold (stepSum0 (arrA0 V c) (arrH0 V c) (2048 * (n / 16) + r.val) j) (n % 16) := by
  intro n
  induction n with
  | zero =>
    intro hn r j
    rw [acc0_first V c ⟨0, hn⟩ (Nat.zero_mod _)]
    rw [k0_pay2_apply, k0_pay1_apply, blk0_prod V c 0 hn r j]
    rfl
  | succ n ih =>
    intro hn r j
    have hN : n + 1 < 128 := lt_of_lt_of_eq hn (show cfg0.N = 128 from N_0)
    by_cases h0 : (n + 1) % 16 = 0
    · rw [acc0_first V c ⟨n + 1, hn⟩ h0]
      rw [k0_pay2_apply, k0_pay1_apply, blk0_prod V c (n + 1) hn r j, h0]
      rfl
    · have hq : (n + 1) / 16 = n / 16 := by omega
      have hm : (n + 1) % 16 = n % 16 + 1 := by omega
      have e := ih (Nat.lt_of_succ_lt hn) r j
      rw [acc0_next V c ⟨n + 1, hn⟩ h0, k0_pay2_apply, blk0_prod V c (n + 1) hn r j]
      refine (congrArg (· + _) e).trans ?_
      rw [hq, hm]
      rfl

/-- At a last contraction step the output block's entry (r, q) is the layer's entry at row 2048 i + r. -/
private theorem out0_apply (c : Dev nD) (t : Fin cfg0.N) (h15 : t.val % 16 = 15) (r : Fin 2048) (q : Fin 64) (R : Fin 16384)
    (hR : R.val = 2048 * (t.val / 16) + r.val) :
    (outsAt0 V c t.val t.isLt).1 (ix2 r q)
      = Cert.Spec.layerRelu 16384 64 64 (arrA0 V c) (arrH0 V c) (arrW0 V c) (ix2 R q) := by
  rw [out0_last V c t h15, k0_pay3_apply, Cert.Spec.layerRelu_ix2]
  unfold Cert.Spec.layerAt
  refine congrArg (fun x : EReal => max x 0) ?_
  refine Finset.sum_congr rfl fun j _ => ?_
  rw [acc0_inv V c t.val t.isLt r j, h15, ← hR, fold0_eq_sum, blkW0_apply]

private abbrev layerArr0 (c : Dev nD) : Vec Ideal S16384x64 .f32 :=
  Cert.Spec.layerRelu 16384 64 64 (arrA0 V c) (arrH0 V c) (arrW0 V c)

private theorem flushed0_eq (c : Dev nD) (t : Fin cfg0.N) (hf : (cfg0.win 3).flush t = true) :
    (dat0 V c).flushed 3 t = ((cfg0.win 3).blk t).view.read (Elt Ideal) (layerArr0 V c) := by
  have h15 : t.val % 16 = 15 := (flush0_3 t).mp hf
  have hN : t.val < 128 := lt_of_lt_of_eq t.isLt (show cfg0.N = 128 from N_0)
  obtain ⟨-, -, -, -, -, -, e0, e1⟩ := idxFacts0 t
  show (cfg0.win 3).cut (grid0.coords t) ((dat0 V c).after 3 t) = _
  rw [after0_3]
  funext y
  have hy0 : (y 0).val < 2048 := (y 0).isLt
  have hy1 : (y 1).val < 64 := (y 1).isLt
  show (outsAt0 V c t.val t.isLt).1 ((cfg0.win 3).xinj (grid0.coords t) y) = layerArr0 V c (((cfg0.win 3).blk t).view.emb y)
  have ex : ((cfg0.win 3).xinj (grid0.coords t) y : S2048x64.Idx) = ix2 ⟨(y 0).val, hy0⟩ ⟨(y 1).val, hy1⟩ := by
    funext a
    match a with
    | ⟨0, _⟩ => rfl
    | ⟨1, _⟩ => rfl
  have em : (((cfg0.win 3).blk t).view.emb y : S16384x64.Idx)
      = ix2 ⟨2048 * (t.val / 16) + (y 0).val, by omega⟩ ⟨(y 1).val, hy1⟩ := by
    funext a; apply Fin.ext
    match a with
    | ⟨0, _⟩ => show win0_3.index t (0 : Fin 2) * 2048 + 1 * (y 0).val = 2048 * (t.val / 16) + (y 0).val; omega
    | ⟨1, _⟩ => show win0_3.index t (1 : Fin 2) * 64 + 1 * (y 1).val = (y 1).val; omega
  rw [ex, em]
  exact out0_apply V c t h15 _ _ _ rfl

private theorem mem_blk0_3 (t : Fin cfg0.N) (i : S16384x64.Idx) :
    i ∈ ((cfg0.win 3).blk t).view.set ↔ ∀ a : Fin 2, win0_3.index t a * S2048x64.size a ≤ (i a).val
      ∧ (i a).val < win0_3.index t a * S2048x64.size a + S2048x64.size a := by
  show i ∈ ((View.whole main_v0).slice (win0_3.rect t)).set ↔ _
  rw [View.set_slice_whole, Rect.mem_set_unit]
  exact Iff.rfl

/-- Every row of the output array is in the block written back at the last contraction step of its row block. -/
private theorem cover0_3 (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hlt : 16 * ((i 0).val / 2048) + 15 < cfg0.N :=
    lt_of_lt_of_eq (show 16 * ((i 0).val / 2048) + 15 < 128 by omega) (show cfg0.N = 128 from N_0).symm
  obtain ⟨-, -, -, -, -, -, e0, e1⟩ := idxFacts0 ⟨16 * ((i 0).val / 2048) + 15, hlt⟩
  refine ⟨⟨16 * ((i 0).val / 2048) + 15, hlt⟩, (flush0_3 _).mpr (show (16 * ((i 0).val / 2048) + 15) % 16 = 15 by omega), ?_⟩
  rw [mem_blk0_3]
  intro a
  match a with
  | ⟨0, _⟩ =>
    show win0_3.index ⟨16 * ((i 0).val / 2048) + 15, hlt⟩ (0 : Fin 2) * 2048 ≤ (i 0).val
      ∧ (i 0).val < win0_3.index ⟨16 * ((i 0).val / 2048) + 15, hlt⟩ (0 : Fin 2) * 2048 + 2048
    rw [e0]
    show (16 * ((i 0).val / 2048) + 15) / 16 * 2048 ≤ (i 0).val ∧ (i 0).val < (16 * ((i 0).val / 2048) + 15) / 16 * 2048 + 2048
    omega
  | ⟨1, _⟩ =>
    show win0_3.index ⟨16 * ((i 0).val / 2048) + 15, hlt⟩ (1 : Fin 2) * 64 ≤ (i 1).val
      ∧ (i 1).val < win0_3.index ⟨16 * ((i 0).val / 2048) + 15, hlt⟩ (1 : Fin 2) * 64 + 64
    rw [e1]
    omega

end Region0

/-- After region 0 its output array is one layer, with the maximum with zero, of the arrays the region was entered with. -/
theorem final0 (V : (c : Dev nD) → (b : Ref sig .tc) → Buf (Elt Ideal) ((c : Thread nD τ).loc b)) (c : Dev nD) :
    (dat0 (F := Ideal) V c).arrAt 3 cfg0.N
      = Cert.Spec.layerRelu 16384 64 64 (V c main_arg0) (V c main_arg1) (V c main_arg2) :=
  (dat0 (F := Ideal) V c).arrAt_eq_of_cover 3 (layerArr0 V c) (fun t hf => flushed0_eq V c t hf) (cover0_3)

end Cert.KernelIdeal.Hand

end
-- ==== Proof.KI.R1Pieces.lean ====
import proofs.«141569_j26164940767949_1_alg».proof.Proof.KI.R1Body
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl

section Point

variable (c : Dev nD) (t : Fin cfg1.N) (x0 : Vec F S2048x1024 .f32) (x1 : Vec F S1024x64 .f32) (x2 : Vec F S32x64 .f32)

/-- At contraction step 0 the accumulator is stored whole twice, the zero splat and then the update of the splat read
    back: the later store covers, and its payload reads the earlier store's. -/
theorem soutA1_eq (h0 : t.val % 16 = 0) (h1 : ¬t.val % 16 = 15) :
    soutA1 c t x0 x1 x2 h0 h1 = k1_pay2 x0 x1 (k1_pay1 (F := F)) := by
  unfold soutA1
  rw [View.read_writes_eq_canon _ _ _ (scoverA1 c t x0 x1 x2 h0 h1)]
  unfold runA1 kernelRun1_A
  dsimp only
  sl_unfold_words
  rw [View.canon_cons_unit_zero (S := S2048x64) hz2, View.readCov_unit_zero (S := S2048x64) _ hz2]
  simp only [View.readAt_eq_ld, (hs1_0 t).read_unread, (hs1_1 t).read_unread, (hs1_2 t).read_unread, (hs1_3 t).read_unread, (Memref.isWhole_whole cc1_scratch0).read_unread, View.ld_unit_zero (S := S2048x1024) hz2, View.ld_unit_zero (S := S1024x64) hz2, View.ld_unit_zero (S := S32x64) hz2, View.ld_unit_zero (S := S2048x32) hz2, View.ld_unit_zero (S := S2048x64) hz2, View.readCov_unit_zero (S := S2048x64) _ hz2]

/-- At a later contraction step the accumulator is stored whole once: the update of what it held. -/
theorem soutB1_eq (h0 : ¬t.val % 16 = 0) (h1 : ¬t.val % 16 = 15) (xs0 : Vec F S2048x64 .f32) :
    soutB1 c t x0 x1 x2 h0 h1 xs0 = k1_pay2 x0 x1 xs0 := by
  unfold soutB1
  rw [View.read_writes_eq_canon _ _ _ (scoverB1 c t x0 x1 x2 h0 h1 xs0)]
  unfold runB1 kernelRun1_B
  dsimp only
  sl_unfold_words
  rw [View.canon_unit_zero (S := S2048x64) hz2]
  simp only [View.readAt_eq_ld, (hs1_0 t).read_unread, (hs1_1 t).read_unread, (hs1_2 t).read_unread, (hs1_3 t).read_unread, (Memref.isWhole_whole cc1_scratch0).read_unread, View.ld_unit_zero (S := S2048x1024) hz2, View.ld_unit_zero (S := S1024x64) hz2, View.ld_unit_zero (S := S32x64) hz2, View.ld_unit_zero (S := S2048x32) hz2, View.ld_unit_zero (S := S2048x64) hz2, View.readCov_unit_zero (S := S2048x64) _ hz2]

theorem soutC1_eq (h0 : ¬t.val % 16 = 0) (h1 : t.val % 16 = 15) (xs0 : Vec F S2048x64 .f32) :
    soutC1 c t x0 x1 x2 h0 h1 xs0 = k1_pay2 x0 x1 xs0 := by
  unfold soutC1
  rw [View.read_writes_eq_canon _ _ _ (scoverC1 c t x0 x1 x2 h0 h1 xs0)]
  unfold runC1 kernelRun1_C
  dsimp only
  sl_unfold_words
  rw [View.canon_unit_zero (S := S2048x64) hz2]
  simp only [View.readAt_eq_ld, (hs1_0 t).read_unread, (hs1_1 t).read_unread, (hs1_2 t).read_unread, (hs1_3 t).read_unread, (Memref.isWhole_whole cc1_scratch0).read_unread, View.ld_unit_zero (S := S2048x1024) hz2, View.ld_unit_zero (S := S1024x64) hz2, View.ld_unit_zero (S := S32x64) hz2, View.ld_unit_zero (S := S2048x32) hz2, View.ld_unit_zero (S := S2048x64) hz2, View.readCov_unit_zero (S := S2048x64) _ hz2]

/-- At the last contraction step the output block is stored whole once: the epilogue of the weights and of the
    accumulator read back after its one whole store. -/
theorem outC1_eq (h0 : ¬t.val % 16 = 0) (h1 : t.val % 16 = 15) (xs0 : Vec F S2048x64 .f32) :
    outC1 c t x0 x1 x2 h0 h1 xs0 = k1_pay3 x2 (k1_pay2 x0 x1 xs0) := by
  unfold outC1
  rw [View.read_writes_eq_canon _ _ _ (coverC1 c t x0 x1 x2 h0 h1 xs0)]
  unfold runC1 kernelRun1_C
  dsimp only
  sl_unfold_words
  rw [View.canon_unit_zero (S := S2048x32) hz2]
  simp only [View.readAt_eq_ld, (hs1_0 t).read_unread, (hs1_1 t).read_unread, (hs1_2 t).read_unread, (hs1_3 t).read_unread, (Memref.isWhole_whole cc1_scratch0).read_unread, View.ld_unit_zero (S := S2048x1024) hz2, View.ld_unit_zero (S := S1024x64) hz2, View.ld_unit_zero (S := S32x64) hz2, View.ld_unit_zero (S := S2048x32) hz2, View.ld_unit_zero (S := S2048x64) hz2, View.readCov_unit_zero (S := S2048x64) _ hz2]

end Point

variable (V : (c : Dev nD) → (b : Ref sig .tc) → Buf (Elt F) ((c : Thread nD τ).loc b)) (c : Dev nD) (t : Fin cfg1.N)

/-- The accumulator after a row block's first contraction step: the step's update of zero. -/
theorem acc1_first (h0 : t.val % 16 = 0) :
    (outsAt1 V c t.val t.isLt).2 = k1_pay2 (iblk1 V c 0 t) (iblk1 V c 1 t) (k1_pay1 (F := F)) := by
  rw [outsAt1_A V c t h0]; dsimp only; exact soutA1_eq (F := F) c t _ _ _ h0 _

/-- The accumulator after a later contraction step: the step's update of what the point before left. -/
theorem acc1_next (h0 : ¬t.val % 16 = 0) :
    (outsAt1 V c t.val t.isLt).2 = k1_pay2 (iblk1 V c 0 t) (iblk1 V c 1 t) (outsAt1 V c (t.val - 1) (Nat.lt_of_le_of_lt (Nat.sub_le _ _) t.isLt)).2 := by
  by_cases h1 : t.val % 16 = 15
  · rw [outsAt1_C V c t h0 h1]; dsimp only; exact soutC1_eq (F := F) c t _ _ _ h0 h1 _
  · rw [outsAt1_B V c t h0 h1]; dsimp only; exact soutB1_eq (F := F) c t _ _ _ h0 h1 _

/-- At the last contraction step the output block is the epilogue of the weights' block and of the accumulator as this
    very step leaves it. -/
theorem out1_last (h1 : t.val % 16 = 15) :
    (outsAt1 V c t.val t.isLt).1 = k1_pay3 (iblk1 V c 2 t) (outsAt1 V c t.val t.isLt).2 := by
  have h0 : ¬t.val % 16 = 0 := by omega
  rw [outsAt1_C V c t h0 h1]; dsimp only
  exact (outC1_eq (F := F) c t _ _ _ h0 h1 _).trans (congrArg _ (soutC1_eq (F := F) c t _ _ _ h0 h1 _).symm)

end Cert.KernelIdeal.Hand

end
-- ==== Proof.KI.Val1.lean ====
import proofs.«141569_j26164940767949_1_alg».proof.Proof.KI.R1Pieces
import proofs.«141569_j26164940767949_1_alg».proof.Proof.KI.Pay
import proofs.«141569_j26164940767949_1_alg».proof.Proof.Spec
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The block index of each window at grid point t = 16·i + k: row block i and contraction step k for A, the contraction step for the activations, the one block of the weights, the row block for the output. -/
theorem idx1 : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

theorem idx1_at (n : ℕ) (hn : n < cfg1.N) :
    win1_0.index ⟨n, hn⟩ (0 : Fin 2) = n / 16 ∧ win1_0.index ⟨n, hn⟩ (1 : Fin 2) = n % 16
    ∧ win1_1.index ⟨n, hn⟩ (0 : Fin 2) = n % 16 ∧ win1_1.index ⟨n, hn⟩ (1 : Fin 2) = 0
    ∧ win1_2.index ⟨n, hn⟩ (0 : Fin 2) = 0 ∧ win1_2.index ⟨n, hn⟩ (1 : Fin 2) = 0
    ∧ win1_3.index ⟨n, hn⟩ (0 : Fin 2) = n / 16 ∧ win1_3.index ⟨n, hn⟩ (1 : Fin 2) = 0 :=
  idx1 ⟨n, hn⟩

section

variable (V : (c : Dev nD) → (b : Ref sig .tc) → Buf (Elt Ideal) ((c : Thread nD τ).loc b))

abbrev aArr (c : Dev nD) : Vec Ideal S16384x16384 .f32 := V c main_arg0

abbrev hArr (c : Dev nD) : Vec Ideal S16384x64 .f32 := V c main_v0

abbrev wArr (c : Dev nD) : Vec Ideal S32x64 .f32 := V c main_arg3

abbrev aBlk (c : Dev nD) (t : Fin cfg1.N) : Vec Ideal S2048x1024 .f32 := iblk1 V c 0 t

abbrev hBlk (c : Dev nD) (t : Fin cfg1.N) : Vec Ideal S1024x64 .f32 := iblk1 V c 1 t

def aAt (A : Vec Ideal S16384x16384 .f32) (R C : ℕ) : EReal :=
  if h : R < 16384 ∧ C < 16384 then A (ix2 ⟨R, h.1⟩ ⟨C, h.2⟩) else 0

def hAt (H : Vec Ideal S16384x64 .f32) (R : ℕ) (j : Fin 64) : EReal :=
  if h : R < 16384 then H (ix2 ⟨R, h⟩ j) else 0

/-- A block's coordinate is its block index times the block's size plus the coordinate inside the block. -/
theorem aBlk_at (c : Dev nD) (n : ℕ) (hn : n < cfg1.N) (r : Fin 2048) (l : Fin 1024) :
    aBlk V c ⟨n, hn⟩ (ix2 r l) = aAt (aArr V c) (2048 * (n / 16) + r.val) (1024 * (n % 16) + l.val) := by
  have hN : n < 128 := lt_of_lt_of_eq hn (show cfg1.N = 128 from N_1)
  have hR : 2048 * (n / 16) + r.val < 16384 := by have := r.isLt; omega
  have hC : 1024 * (n % 16) + l.val < 16384 := by have := l.isLt; omega
  obtain ⟨e0, e1, -⟩ := idx1_at n hn
  unfold aAt
  rw [dif_pos ⟨hR, hC⟩]
  show V c main_arg0 (((cfg1.win 0).blk ⟨n, hn⟩).view.emb (ix2 r l)) = V c main_arg0 (ix2 ⟨_, hR⟩ ⟨_, hC⟩)
  congr 1
  funext a
  apply Fin.ext
  match a with
  | ⟨0, _⟩ => show win1_0.index ⟨n, hn⟩ (0 : Fin 2) * 2048 + 1 * r.val = 2048 * (n / 16) + r.val; rw [e0]; omega
  | ⟨1, _⟩ => show win1_0.index ⟨n, hn⟩ (1 : Fin 2) * 1024 + 1 * l.val = 1024 * (n % 16) + l.val; rw [e1]; omega

theorem hBlk_at (c : Dev nD) (n : ℕ) (hn : n < cfg1.N) (l : Fin 1024) (j : Fin 64) :
    hBlk V c ⟨n, hn⟩ (ix2 l j) = hAt (hArr V c) (1024 * (n % 16) + l.val) j := by
  have hC : 1024 * (n % 16) + l.val < 16384 := by have := l.isLt; omega
  obtain ⟨-, -, e2, e3, -⟩ := idx1_at n hn
  unfold hAt
  rw [dif_pos hC]
  show V c main_v0 (((cfg1.win 1).blk ⟨n, hn⟩).view.emb (ix2 l j)) = V c main_v0 (ix2 ⟨_, hC⟩ j)
  congr 1
  funext a
  apply Fin.ext
  match a with
  | ⟨0, _⟩ => show win1_1.index ⟨n, hn⟩ (0 : Fin 2) * 1024 + 1 * l.val = 1024 * (n % 16) + l.val; rw [e2]; omega
  | ⟨1, _⟩ => show win1_1.index ⟨n, hn⟩ (1 : Fin 2) * 64 + 1 * j.val = j.val; rw [e3]; omega

theorem wBlk_at (c : Dev nD) (t : Fin cfg1.N) (q : Fin 32) (j : Fin 64) :
    iblk1 V c 2 t (ix2 q j) = wArr V c (ix2 q j) := by
  obtain ⟨-, -, -, -, e4, e5, -⟩ := idx1 t
  show V c main_arg3 (((cfg1.win 2).blk t).view.emb (ix2 q j)) = V c main_arg3 (ix2 q j)
  congr 1
  funext a
  apply Fin.ext
  match a with
  | ⟨0, _⟩ => show win1_2.index t (0 : Fin 2) * 32 + 1 * q.val = q.val; rw [e4]; omega
  | ⟨1, _⟩ => show win1_2.index t (1 : Fin 2) * 64 + 1 * j.val = j.val; rw [e5]; omega

/-- The product of block s of row R of A with block s of column j of h. -/
def blkDot (A : Vec Ideal S16384x16384 .f32) (H : Vec Ideal S16384x64 .f32) (R : ℕ) (j : Fin 64) (s : ℕ) : EReal :=
  ∑ l : Fin 1024, aAt A R (1024 * s + l.val) * hAt H (1024 * s + l.val) j

theorem step_dot (c : Dev nD) (n : ℕ) (hn : n < cfg1.N) (r : Fin 2048) (j : Fin 64) :
    ∑ l : Fin 1024, aBlk V c ⟨n, hn⟩ (ix2 r l) * hBlk V c ⟨n, hn⟩ (ix2 l j)
      = blkDot (aArr V c) (hArr V c) (2048 * (n / 16) + r.val) j (n % 16) := by
  unfold blkDot
  refine Finset.sum_congr rfl fun l _ => ?_
  rw [aBlk_at, hBlk_at]

/-- After point n the accumulator's entry (r, j) is the block products of row 2048·(n / 16) + r of A with column j of h for the contraction steps 0 … n % 16, added in that order from zero. -/
theorem acc_inv (c : Dev nD) : ∀ (n : ℕ) (hn : n < cfg1.N) (r : Fin 2048) (j : Fin 64),
    (outsAt1 V c n hn).2 (ix2 r j)
      = Cert.Spec.blockFold (blkDot (aArr V c) (hArr V c) (2048 * (n / 16) + r.val) j) (n % 16) := by
  intro n
  induction n using Nat.strong_induction_on with
  | _ n ih =>
    intro hn r j
    by_cases h0 : n % 16 = 0
    · rw [acc1_first V c ⟨n, hn⟩ h0, k1_pay2_apply, k1_pay1_apply, step_dot, h0]
      rfl
    · obtain ⟨k, hk⟩ : ∃ k, n % 16 = k + 1 := ⟨n % 16 - 1, by omega⟩
      have e1 : (n - 1) % 16 = k := by omega
      have e2 : (n - 1) / 16 = n / 16 := by omega
      have hprev := ih (n - 1) (by omega) (Nat.lt_of_le_of_lt (Nat.sub_le _ _) hn) r j
      rw [e1, e2] at hprev
      rw [acc1_next V c ⟨n, hn⟩ h0, k1_pay2_apply, hprev, step_dot, hk]
      rfl

/-- The sixteen block products add up to the whole contraction: a sum over 16384 = 16 · 1024 positions is the sum over the 16 blocks of the sums inside the blocks. -/
theorem dot_blocks (A : Vec Ideal S16384x16384 .f32) (H : Vec Ideal S16384x64 .f32) (R : Fin 16384) (j : Fin 64) :
    ∑ s ∈ Finset.range (15 + 1), blkDot A H R.val j s = ∑ k : Fin 16384, A (ix2 R k) * H (ix2 k j) := by
  rw [Finset.sum_range]
  refine Eq.trans ?_ (Cert.Spec.sum_blocks 16 1024 (fun k : Fin (16 * 1024) => A (ix2 R k) * H (ix2 k j))).symm
  refine Finset.sum_congr rfl fun s _ => ?_
  unfold blkDot
  refine Finset.sum_congr rfl fun l _ => ?_
  have hC : 1024 * s.val + l.val < 16384 := by have := s.isLt; have := l.isLt; omega
  unfold aAt hAt
  rw [dif_pos ⟨R.isLt, hC⟩, dif_pos hC]

/-- At the last contraction step the output block's entry (r, q) is the layer's entry (2048·(n / 16) + r, q). -/
theorem out_at (c : Dev nD) (n : ℕ) (hn : n < cfg1.N) (h15 : n % 16 = 15) (r : Fin 2048) (q : Fin 32)
    (R : Fin 16384) (hR : R.val = 2048 * (n / 16) + r.val) :
    (outsAt1 V c n hn).1 (ix2 r q)
      = Cert.Spec.layerRelu 16384 64 32 (aArr V c) (hArr V c) (wArr V c) (ix2 R q) := by
  rw [out1_last V c ⟨n, hn⟩ h15, k1_pay3_apply, Cert.Spec.layerRelu_ix2]
  unfold Cert.Spec.layerAt
  refine congrArg (fun x : EReal => max x 0) ?_
  refine Finset.sum_congr rfl fun j _ => ?_
  rw [acc_inv V c n hn r j, h15, Cert.Spec.blockFold_eq, wBlk_at, ← hR, dot_blocks]

theorem flushed1_eq (c : Dev nD) (t : Fin cfg1.N) (hf : (cfg1.win 3).flush t = true) :
    (dat1 V c).flushed 3 t
      = ((cfg1.win 3).blk t).view.read (Elt Ideal) (Cert.Spec.layerRelu 16384 64 32 (aArr V c) (hArr V c) (wArr V c)) := by
  obtain ⟨n, hn⟩ := t
  have h15 : n % 16 = 15 := (flush1_3 ⟨n, hn⟩).mp hf
  have hN : n < 128 := lt_of_lt_of_eq hn (show cfg1.N = 128 from N_1)
  obtain ⟨-, -, -, -, -, -, e6, e7⟩ := idx1_at n hn
  show (cfg1.win 3).cut (grid1.coords ⟨n, hn⟩) ((dat1 V c).after 3 ⟨n, hn⟩) = _
  rw [after1_3]
  funext y
  have hy0 : (y 0).val < 2048 := (y 0).isLt
  have hy1 : (y 1).val < 32 := (y 1).isLt
  have hR : 2048 * (n / 16) + (y 0).val < 16384 := by omega
  show (outsAt1 V c n hn).1 ((cfg1.win 3).xinj (grid1.coords ⟨n, hn⟩) y)
    = Cert.Spec.layerRelu 16384 64 32 (aArr V c) (hArr V c) (wArr V c) (((cfg1.win 3).blk ⟨n, hn⟩).view.emb y)
  have ex : (cfg1.win 3).xinj (grid1.coords ⟨n, hn⟩) y = ix2 (⟨(y 0).val, hy0⟩ : Fin 2048) (⟨(y 1).val, hy1⟩ : Fin 32) := by
    funext a
    apply Fin.ext
    match a with
    | ⟨0, _⟩ => rfl
    | ⟨1, _⟩ => rfl
  have ee : ((cfg1.win 3).blk ⟨n, hn⟩).view.emb y
      = ix2 (⟨2048 * (n / 16) + (y 0).val, hR⟩ : Fin 16384) (⟨(y 1).val, hy1⟩ : Fin 32) := by
    funext a
    apply Fin.ext
    match a with
    | ⟨0, _⟩ => show win1_3.index ⟨n, hn⟩ (0 : Fin 2) * 2048 + 1 * (y 0).val = 2048 * (n / 16) + (y 0).val; rw [e6]; omega
    | ⟨1, _⟩ => show win1_3.index ⟨n, hn⟩ (1 : Fin 2) * 32 + 1 * (y 1).val = (y 1).val; rw [e7]; omega
  rw [ex, ee]
  exact out_at V c n hn h15 _ _ _ rfl

theorem mem_blk1_3 (t : Fin cfg1.N) (i : S16384x32.Idx) :
    i ∈ ((cfg1.win 3).blk t).view.set
      ↔ ∀ a : Fin 2, win1_3.index t a * S2048x32.size a ≤ (i a).val
          ∧ (i a).val < win1_3.index t a * S2048x32.size a + S2048x32.size a := by
  show i ∈ ((View.whole main_v1).slice (win1_3.rect t)).set ↔ _
  rw [View.set_slice_whole, Rect.mem_set_unit]
  exact Iff.rfl

/-- Every row R of the output array is in the block of the last contraction step of its row block R / 2048. -/
theorem cover1_3 (i : S16384x32.Idx) :
    ∃ t : Fin cfg1.N, (cfg1.win 3).flush t = true ∧ i ∈ ((cfg1.win 3).blk t).view.set := by
  have hi0 : (i 0).val < 16384 := (i 0).isLt
  have hi1 : (i 1).val < 32 := (i 1).isLt
  have hlt : 16 * ((i 0).val / 2048) + 15 < cfg1.N := by rw [show cfg1.N = 128 from N_1]; omega
  obtain ⟨-, -, -, -, -, -, e6, e7⟩ := idx1_at (16 * ((i 0).val / 2048) + 15) hlt
  refine ⟨⟨16 * ((i 0).val / 2048) + 15, hlt⟩, (flush1_3 _).mpr (by show (16 * ((i 0).val / 2048) + 15) % 16 = 15; omega), ?_⟩
  rw [mem_blk1_3]
  intro a
  match a with
  | ⟨0, _⟩ =>
    show win1_3.index ⟨16 * ((i 0).val / 2048) + 15, hlt⟩ (0 : Fin 2) * 2048 ≤ (i 0).val
      ∧ (i 0).val < win1_3.index ⟨16 * ((i 0).val / 2048) + 15, hlt⟩ (0 : Fin 2) * 2048 + 2048
    rw [e6]; omega
  | ⟨1, _⟩ =>
    show win1_3.index ⟨16 * ((i 0).val / 2048) + 15, hlt⟩ (1 : Fin 2) * 32 ≤ (i 1).val
      ∧ (i 1).val < win1_3.index ⟨16 * ((i 0).val / 2048) + 15, hlt⟩ (1 : Fin 2) * 32 + 32
    rw [e7]; omega

end

/-- After region 1 its output array is one layer, with the maximum with zero, of the arrays the region was entered with. -/
theorem final1 (V : (c : Dev nD) → (b : Ref sig .tc) → Buf (Elt Ideal) ((c : Thread nD τ).loc b)) (c : Dev nD) :
    (dat1 (F := Ideal) V c).arrAt 3 cfg1.N
      = Cert.Spec.layerRelu 16384 64 32 (V c main_arg0) (V c main_v0) (V c main_arg3) :=
  (dat1 (F := Ideal) V c).arrAt_eq_of_cover 3 (Cert.Spec.layerRelu 16384 64 32 (V c main_arg0) (V c main_v0) (V c main_arg3))
    (fun t hf => flushed1_eq V c t hf) cover1_3

end Cert.KernelIdeal.Hand

end
-- ==== Proof.KI.R2Pieces.lean ====
import proofs.«141569_j26164940767949_1_alg».proof.Proof.KI.R2Body
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl

section Point

variable (c : Dev nD) (t : Fin cfg2.N) (x0 : Vec F S2048x1024 .f32) (x1 : Vec F S1024x32 .f32) (x2 : Vec F S32x32 .f32)

/-- At contraction step 0 the accumulator is stored whole twice, the zero splat and then the update of the splat read
    back: the later store covers, and its payload reads the earlier store's. -/
theorem soutA2_eq (h0 : t.val % 16 = 0) (h1 : ¬t.val % 16 = 15) :
    soutA2 c t x0 x1 x2 h0 h1 = k2_pay2 x0 x1 (k2_pay1 (F := F)) := by
  unfold soutA2
  rw [View.read_writes_eq_canon _ _ _ (scoverA2 c t x0 x1 x2 h0 h1)]
  unfold runA2 kernelRun2_A
  dsimp only
  sl_unfold_words
  rw [View.canon_cons_unit_zero (S := S2048x32) hz2, View.readCov_unit_zero (S := S2048x32) _ hz2]
  simp only [View.readAt_eq_ld, (hs2_0 t).read_unread, (hs2_1 t).read_unread, (hs2_2 t).read_unread, (hs2_3 t).read_unread, (Memref.isWhole_whole cc2_scratch0).read_unread, View.ld_unit_zero (S := S2048x1024) hz2, View.ld_unit_zero (S := S1024x32) hz2, View.ld_unit_zero (S := S32x32) hz2, View.ld_unit_zero (S := S2048x32) hz2, View.ld_unit_zero (S := S2048x32) hz2, View.readCov_unit_zero (S := S2048x32) _ hz2]

/-- At a later contraction step the accumulator is stored whole once: the update of what it held. -/
theorem soutB2_eq (h0 : ¬t.val % 16 = 0) (h1 : ¬t.val % 16 = 15) (xs0 : Vec F S2048x32 .f32) :
    soutB2 c t x0 x1 x2 h0 h1 xs0 = k2_pay2 x0 x1 xs0 := by
  unfold soutB2
  rw [View.read_writes_eq_canon _ _ _ (scoverB2 c t x0 x1 x2 h0 h1 xs0)]
  unfold runB2 kernelRun2_B
  dsimp only
  sl_unfold_words
  rw [View.canon_unit_zero (S := S2048x32) hz2]
  simp only [View.readAt_eq_ld, (hs2_0 t).read_unread, (hs2_1 t).read_unread, (hs2_2 t).read_unread, (hs2_3 t).read_unread, (Memref.isWhole_whole cc2_scratch0).read_unread, View.ld_unit_zero (S := S2048x1024) hz2, View.ld_unit_zero (S := S1024x32) hz2, View.ld_unit_zero (S := S32x32) hz2, View.ld_unit_zero (S := S2048x32) hz2, View.ld_unit_zero (S := S2048x32) hz2, View.readCov_unit_zero (S := S2048x32) _ hz2]

theorem soutC2_eq (h0 : ¬t.val % 16 = 0) (h1 : t.val % 16 = 15) (xs0 : Vec F S2048x32 .f32) :
    soutC2 c t x0 x1 x2 h0 h1 xs0 = k2_pay2 x0 x1 xs0 := by
  unfold soutC2
  rw [View.read_writes_eq_canon _ _ _ (scoverC2 c t x0 x1 x2 h0 h1 xs0)]
  unfold runC2 kernelRun2_C
  dsimp only
  sl_unfold_words
  rw [View.canon_unit_zero (S := S2048x32) hz2]
  simp only [View.readAt_eq_ld, (hs2_0 t).read_unread, (hs2_1 t).read_unread, (hs2_2 t).read_unread, (hs2_3 t).read_unread, (Memref.isWhole_whole cc2_scratch0).read_unread, View.ld_unit_zero (S := S2048x1024) hz2, View.ld_unit_zero (S := S1024x32) hz2, View.ld_unit_zero (S := S32x32) hz2, View.ld_unit_zero (S := S2048x32) hz2, View.ld_unit_zero (S := S2048x32) hz2, View.readCov_unit_zero (S := S2048x32) _ hz2]

/-- At the last contraction step the output block is stored whole once: the epilogue of the weights and of the
    accumulator read back after its one whole store. -/
theorem outC2_eq (h0 : ¬t.val % 16 = 0) (h1 : t.val % 16 = 15) (xs0 : Vec F S2048x32 .f32) :
    outC2 c t x0 x1 x2 h0 h1 xs0 = k2_pay3 x2 (k2_pay2 x0 x1 xs0) := by
  unfold outC2
  rw [View.read_writes_eq_canon _ _ _ (coverC2 c t x0 x1 x2 h0 h1 xs0)]
  unfold runC2 kernelRun2_C
  dsimp only
  sl_unfold_words
  rw [View.canon_unit_zero (S := S2048x32) hz2]
  simp only [View.readAt_eq_ld, (hs2_0 t).read_unread, (hs2_1 t).read_unread, (hs2_2 t).read_unread, (hs2_3 t).read_unread, (Memref.isWhole_whole cc2_scratch0).read_unread, View.ld_unit_zero (S := S2048x1024) hz2, View.ld_unit_zero (S := S1024x32) hz2, View.ld_unit_zero (S := S32x32) hz2, View.ld_unit_zero (S := S2048x32) hz2, View.ld_unit_zero (S := S2048x32) hz2, View.readCov_unit_zero (S := S2048x32) _ hz2]

end Point

variable (V : (c : Dev nD) → (b : Ref sig .tc) → Buf (Elt F) ((c : Thread nD τ).loc b)) (c : Dev nD) (t : Fin cfg2.N)

/-- The accumulator after a row block's first contraction step: the step's update of zero. -/
theorem acc2_first (h0 : t.val % 16 = 0) :
    (outsAt2 V c t.val t.isLt).2 = k2_pay2 (iblk2 V c 0 t) (iblk2 V c 1 t) (k2_pay1 (F := F)) := by
  rw [outsAt2_A V c t h0]; dsimp only; exact soutA2_eq (F := F) c t _ _ _ h0 _

/-- The accumulator after a later contraction step: the step's update of what the point before left. -/
theorem acc2_next (h0 : ¬t.val % 16 = 0) :
    (outsAt2 V c t.val t.isLt).2 = k2_pay2 (iblk2 V c 0 t) (iblk2 V c 1 t) (outsAt2 V c (t.val - 1) (Nat.lt_of_le_of_lt (Nat.sub_le _ _) t.isLt)).2 := by
  by_cases h1 : t.val % 16 = 15
  · rw [outsAt2_C V c t h0 h1]; dsimp only; exact soutC2_eq (F := F) c t _ _ _ h0 h1 _
  · rw [outsAt2_B V c t h0 h1]; dsimp only; exact soutB2_eq (F := F) c t _ _ _ h0 h1 _

/-- At the last contraction step the output block is the epilogue of the weights' block and of the accumulator as this
    very step leaves it. -/
theorem out2_last (h1 : t.val % 16 = 15) :
    (outsAt2 V c t.val t.isLt).1 = k2_pay3 (iblk2 V c 2 t) (outsAt2 V c t.val t.isLt).2 := by
  have h0 : ¬t.val % 16 = 0 := by omega
  rw [outsAt2_C V c t h0 h1]; dsimp only
  exact (outC2_eq (F := F) c t _ _ _ h0 h1 _).trans (congrArg _ (soutC2_eq (F := F) c t _ _ _ h0 h1 _).symm)

end Cert.KernelIdeal.Hand

end
-- ==== Proof.KI.Val2.lean ====
import proofs.«141569_j26164940767949_1_alg».proof.Proof.KI.R2Pieces
import proofs.«141569_j26164940767949_1_alg».proof.Proof.KI.Pay
import proofs.«141569_j26164940767949_1_alg».proof.Proof.Spec
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Region2Value

variable (V : (c : Dev nD) → (b : Ref sig .tc) → Buf (Elt Ideal) ((c : Thread nD τ).loc b))

/-- The block index of each window at grid point t = 16·i + k. -/
private theorem blockIndex2 : ∀ t : Fin cfg2.N,
    win2_0.index t (0 : Fin 2) = t.val / 16 ∧ win2_0.index t (1 : Fin 2) = t.val % 16
    ∧ win2_1.index t (0 : Fin 2) = t.val % 16 ∧ win2_1.index t (1 : Fin 2) = 0
    ∧ win2_2.index t (0 : Fin 2) = 0 ∧ win2_2.index t (1 : Fin 2) = 0
    ∧ win2_3.index t (0 : Fin 2) = t.val / 16 ∧ win2_3.index t (1 : Fin 2) = 0 :=
  (by decide +kernel : ∀ t : Fin grid2.N, _)

private abbrev adjBlk2 (c : Dev nD) (t : Fin cfg2.N) : Vec Ideal S2048x1024 .f32 := iblk2 V c 0 t
private abbrev actBlk2 (c : Dev nD) (t : Fin cfg2.N) : Vec Ideal S1024x32 .f32 := iblk2 V c 1 t
private abbrev wgtBlk2 (c : Dev nD) (t : Fin cfg2.N) : Vec Ideal S32x32 .f32 := iblk2 V c 2 t

private abbrev adjArr2 (c : Dev nD) : S16384x16384.Idx → EReal := V c main_arg0
private abbrev actArr2 (c : Dev nD) : S16384x32.Idx → EReal := V c main_v1
private abbrev wgtArr2 (c : Dev nD) : S32x32.Idx → EReal := V c main_arg4

private theorem adjBlk2_apply (c : Dev nD) (t : Fin cfg2.N) (y : S2048x1024.Idx) (k : S16384x16384.Idx)
    (hk0 : (k 0).val = 2048 * (t.val / 16) + (y 0).val) (hk1 : (k 1).val = 1024 * (t.val % 16) + (y 1).val) :
    adjBlk2 V c t y = adjArr2 V c k := by
  obtain ⟨e0, e1, -⟩ := blockIndex2 t
  unfold adjBlk2 adjArr2 iblk2
  rw [View.read_apply]
  show V c main_arg0 _ = V c main_arg0 _
  congr 1
  funext a
  apply Fin.ext
  match a with
  | ⟨0, _⟩ => show win2_0.index t (0 : Fin 2) * 2048 + 1 * (y 0).val = (k 0).val; rw [e0, hk0]; omega
  | ⟨1, _⟩ => show win2_0.index t (1 : Fin 2) * 1024 + 1 * (y 1).val = (k 1).val; rw [e1, hk1]; omega

private theorem actBlk2_apply (c : Dev nD) (t : Fin cfg2.N) (y : S1024x32.Idx) (k : S16384x32.Idx)
    (hk0 : (k 0).val = 1024 * (t.val % 16) + (y 0).val) (hk1 : (k 1).val = (y 1).val) :
    actBlk2 V c t y = actArr2 V c k := by
  obtain ⟨-, -, e0, e1, -⟩ := blockIndex2 t
  unfold actBlk2 actArr2 iblk2
  rw [View.read_apply]
  show V c main_v1 _ = V c main_v1 _
  congr 1
  funext a
  apply Fin.ext
  match a with
  | ⟨0, _⟩ => show win2_1.index t (0 : Fin 2) * 1024 + 1 * (y 0).val = (k 0).val; rw [e0, hk0]; omega
  | ⟨1, _⟩ => show win2_1.index t (1 : Fin 2) * 32 + 1 * (y 1).val = (k 1).val; rw [e1, hk1]; omega

private theorem wgtBlk2_apply (c : Dev nD) (t : Fin cfg2.N) (y : S32x32.Idx) :
    wgtBlk2 V c t y = wgtArr2 V c y := by
  obtain ⟨-, -, -, -, e0, e1, -⟩ := blockIndex2 t
  unfold wgtBlk2 wgtArr2 iblk2
  rw [View.read_apply]
  show V c main_arg4 _ = V c main_arg4 _
  congr 1
  funext a
  apply Fin.ext
  match a with
  | ⟨0, _⟩ => show win2_2.index t (0 : Fin 2) * 32 + 1 * (y 0).val = (y 0).val; rw [e0]; omega
  | ⟨1, _⟩ => show win2_2.index t (1 : Fin 2) * 32 + 1 * (y 1).val = (y 1).val; rw [e1]; omega

/-- At contraction step 0 the accumulator ends at zero plus the step's block product. -/
private theorem accum2_first (c : Dev nD) (t : Fin cfg2.N) (h0 : t.val % 16 = 0) (r : Fin 2048) (j : Fin 32) :
    (outsAt2 V c t.val t.isLt).2 (ix2 r j)
      = 0 + ∑ l : Fin 1024, adjBlk2 V c t (ix2 r l) * actBlk2 V c t (ix2 l j) := by
  rw [acc2_first V c t h0]
  refine (k2_pay2_apply (adjBlk2 V c t) (actBlk2 V c t) (k2_pay1 (F := Ideal)) r j).trans ?_
  rw [k2_pay1_apply]

/-- At a later contraction step the accumulator ends at what the point before left plus the step's block product. -/
private theorem accum2_later (c : Dev nD) (t : Fin cfg2.N) (h0 : ¬t.val % 16 = 0) (r : Fin 2048) (j : Fin 32) :
    (outsAt2 V c t.val t.isLt).2 (ix2 r j)
      = (outsAt2 V c (t.val - 1) (Nat.lt_of_le_of_lt (Nat.sub_le _ _) t.isLt)).2 (ix2 r j)
        + ∑ l : Fin 1024, adjBlk2 V c t (ix2 r l) * actBlk2 V c t (ix2 l j) := by
  rw [acc2_next V c t h0]
  exact k2_pay2_apply (adjBlk2 V c t) (actBlk2 V c t) _ r j

private theorem outBlk2_last (c : Dev nD) (t : Fin cfg2.N) (h1 : t.val % 16 = 15) (r : Fin 2048) (q : Fin 32) :
    (outsAt2 V c t.val t.isLt).1 (ix2 r q)
      = ∑ j : Fin 32, (outsAt2 V c t.val t.isLt).2 (ix2 r j) * wgtBlk2 V c t (ix2 q j) := by
  rw [out2_last V c t h1]
  exact k2_pay3_apply (wgtBlk2 V c t) _ r q

private def pos16384 (n : ℕ) : Fin 16384 := ⟨n % 16384, Nat.mod_lt _ (by norm_num)⟩

private theorem pos16384_eq (n : ℕ) (k : Fin 16384) (h : k.val = n) : pos16384 n = k :=
  Fin.ext (by show n % 16384 = k.val; have := k.isLt; omega)

private def stepProd2 (c : Dev nD) (i : ℕ) (r : Fin 2048) (j : Fin 32) (s : ℕ) : EReal :=
  ∑ l : Fin 1024, adjArr2 V c (ix2 (pos16384 (2048 * i + r.val)) (pos16384 (1024 * s + l.val)))
    * actArr2 V c (ix2 (pos16384 (1024 * s + l.val)) j)

private theorem blockProd2_eq (c : Dev nD) (t : Fin cfg2.N) (r : Fin 2048) (j : Fin 32) :
    ∑ l : Fin 1024, adjBlk2 V c t (ix2 r l) * actBlk2 V c t (ix2 l j)
      = stepProd2 V c (t.val / 16) r j (t.val % 16) := by
  have hN : t.val < 128 := lt_of_lt_of_eq t.isLt (show cfg2.N = 128 from N_2)
  unfold stepProd2
  refine Finset.sum_congr rfl fun l _ => ?_
  have hr := r.isLt
  have hl := l.isLt
  rw [adjBlk2_apply V c t (ix2 r l) (ix2 (pos16384 (2048 * (t.val / 16) + r.val)) (pos16384 (1024 * (t.val % 16) + l.val)))
      (by show (2048 * (t.val / 16) + r.val) % 16384 = 2048 * (t.val / 16) + r.val; omega)
      (by show (1024 * (t.val % 16) + l.val) % 16384 = 1024 * (t.val % 16) + l.val; omega),
    actBlk2_apply V c t (ix2 l j) (ix2 (pos16384 (1024 * (t.val % 16) + l.val)) j)
      (by show (1024 * (t.val % 16) + l.val) % 16384 = 1024 * (t.val % 16) + l.val; omega) rfl]

/-- The accumulator is the contraction so far, block by block. -/
private theorem acc2_eq (c : Dev nD) (r : Fin 2048) (j : Fin 32) : ∀ (n : ℕ) (hn : n < cfg2.N),
    (outsAt2 V c n hn).2 (ix2 r j) = Cert.Spec.blockFold (stepProd2 V c (n / 16) r j) (n % 16) := by
  intro n
  induction n using Nat.strong_induction_on with
  | _ n ih =>
    intro hn
    by_cases h0 : n % 16 = 0
    · refine (accum2_first V c ⟨n, hn⟩ h0 r j).trans ?_
      rw [blockProd2_eq V c ⟨n, hn⟩ r j]
      show 0 + stepProd2 V c (n / 16) r j (n % 16) = Cert.Spec.blockFold (stepProd2 V c (n / 16) r j) (n % 16)
      rw [h0]
      rfl
    · obtain ⟨k, hk⟩ : ∃ k, n % 16 = k + 1 := ⟨n % 16 - 1, by omega⟩
      refine (accum2_later V c ⟨n, hn⟩ h0 r j).trans ?_
      rw [blockProd2_eq V c ⟨n, hn⟩ r j]
      show (outsAt2 V c (n - 1) _).2 (ix2 r j) + stepProd2 V c (n / 16) r j (n % 16)
        = Cert.Spec.blockFold (stepProd2 V c (n / 16) r j) (n % 16)
      rw [ih (n - 1) (by omega), hk, show (n - 1) / 16 = n / 16 from by omega, show (n - 1) % 16 = k from by omega]
      rfl

/-- A sum over 16384 = 16 · 1024 positions is the sum over the 16 steps of the sums inside the steps. -/
private theorem sum_steps2 (f : Fin 16384 → EReal) :
    ∑ k : Fin 16384, f k = ∑ s : Fin 16, ∑ l : Fin 1024, f (pos16384 (1024 * s.val + l.val)) := by
  refine (Cert.Spec.sum_blocks 16 1024 f).trans ?_
  refine Finset.sum_congr rfl fun s _ => Finset.sum_congr rfl fun l _ => congrArg f (Fin.ext ?_)
  show 1024 * s.val + l.val = (1024 * s.val + l.val) % 16384
  have := s.isLt
  have := l.isLt
  omega

private theorem contraction2 (c : Dev nD) (i : ℕ) (r : Fin 2048) (j : Fin 32) (R : Fin 16384)
    (hR : R.val = 2048 * i + r.val) :
    ∑ s ∈ Finset.range 16, stepProd2 V c i r j s
      = ∑ k : Fin 16384, adjArr2 V c (ix2 R k) * actArr2 V c (ix2 k j) := by
  rw [sum_steps2 (fun k => adjArr2 V c (ix2 R k) * actArr2 V c (ix2 k j)), Finset.sum_range]
  refine Finset.sum_congr rfl fun s _ => ?_
  unfold stepProd2
  rw [pos16384_eq (2048 * i + r.val) R hR]

private theorem out2_at (c : Dev nD) (t : Fin cfg2.N) (h1 : t.val % 16 = 15) (x : S2048x32.Idx) (k : S16384x32.Idx)
    (hk0 : (k 0).val = 2048 * (t.val / 16) + (x 0).val) (hk1 : (k 1).val = (x 1).val) :
    (outsAt2 V c t.val t.isLt).1 x
      = Cert.Spec.layer 16384 32 32 (V c main_arg0) (V c main_v1) (V c main_arg4) k := by
  obtain ⟨r, q, rfl⟩ : ∃ (r : Fin 2048) (q : Fin 32), x = ix2 r q := ⟨x 0, x 1, eq_ix2 x⟩
  obtain ⟨R, Q, rfl⟩ : ∃ (R : Fin 16384) (Q : Fin 32), k = ix2 R Q := ⟨k 0, k 1, eq_ix2 k⟩
  have hR : R.val = 2048 * (t.val / 16) + r.val := hk0
  obtain rfl : Q = q := Fin.ext hk1
  rw [outBlk2_last V c t h1 r Q, Cert.Spec.layer_ix2]
  unfold Cert.Spec.layerAt
  refine Finset.sum_congr rfl fun j _ => ?_
  rw [wgtBlk2_apply V c t (ix2 Q j), acc2_eq V c r j t.val t.isLt, h1, Cert.Spec.blockFold_eq]
  exact congrArg (· * wgtArr2 V c (ix2 Q j)) (contraction2 V c (t.val / 16) r j R hR)

private theorem flushed2_eq (c : Dev nD) (t : Fin cfg2.N) (hf : (cfg2.win 3).flush t = true) :
    (dat2 (F := Ideal) V c).flushed 3 t
      = ((cfg2.win 3).blk t).view.read (Elt Ideal) (Cert.Spec.layer 16384 32 32 (V c main_arg0) (V c main_v1) (V c main_arg4)) := by
  have h1 : t.val % 16 = 15 := (flush2_3 t).mp hf
  obtain ⟨-, -, -, -, -, -, e0, e1⟩ := blockIndex2 t
  show (cfg2.win 3).cut (grid2.coords t) ((dat2 (F := Ideal) V c).after 3 t) = _
  rw [after2_3]
  funext y
  show (outsAt2 V c t.val t.isLt).1 ((cfg2.win 3).xinj (grid2.coords t) y)
    = Cert.Spec.layer 16384 32 32 (V c main_arg0) (V c main_v1) (V c main_arg4) (((cfg2.win 3).blk t).view.emb y)
  refine out2_at V c t h1 ((cfg2.win 3).xinj (grid2.coords t) y) (((cfg2.win 3).blk t).view.emb y) ?_ ?_
  · show win2_3.index t (0 : Fin 2) * 2048 + 1 * (y 0).val = 2048 * (t.val / 16) + (y 0).val
    rw [e0]; omega
  · show win2_3.index t (1 : Fin 2) * 32 + 1 * (y 1).val = (y 1).val
    rw [e1]; omega

private theorem mem_blk2_3 (t : Fin cfg2.N) (i : S16384x32.Idx) :
    i ∈ ((cfg2.win 3).blk t).view.set ↔ ∀ a : Fin 2, win2_3.index t a * S2048x32.size a ≤ (i a).val ∧ (i a).val < win2_3.index t a * S2048x32.size a + S2048x32.size a := by
  show i ∈ ((View.whole main_v2).slice (win2_3.rect t)).set ↔ _
  rw [View.set_slice_whole, Rect.mem_set_unit]
  exact Iff.rfl

/-- Every row of the output array is in the block written back at the last contraction step of its row block. -/
private theorem cover2_3 (i : S16384x32.Idx) :
    ∃ t : Fin cfg2.N, (cfg2.win 3).flush t = true ∧ i ∈ ((cfg2.win 3).blk t).view.set := by
  have hi0 : (i 0).val < 16384 := (i 0).isLt
  have hi1 : (i 1).val < 32 := (i 1).isLt
  have hN : cfg2.N = 128 := N_2
  obtain ⟨t, ht⟩ : ∃ t : Fin cfg2.N, t.val = 16 * ((i 0).val / 2048) + 15 := ⟨⟨16 * ((i 0).val / 2048) + 15, by rw [hN]; omega⟩, rfl⟩
  obtain ⟨-, -, -, -, -, -, e0, e1⟩ := blockIndex2 t
  refine ⟨t, (flush2_3 t).mpr (by omega), ?_⟩
  rw [mem_blk2_3]
  intro a
  match a with
  | ⟨0, _⟩ => show win2_3.index t (0 : Fin 2) * 2048 ≤ (i 0).val ∧ (i 0).val < win2_3.index t (0 : Fin 2) * 2048 + 2048; rw [e0]; omega
  | ⟨1, _⟩ => show win2_3.index t (1 : Fin 2) * 32 ≤ (i 1).val ∧ (i 1).val < win2_3.index t (1 : Fin 2) * 32 + 32; rw [e1]; omega

end Region2Value

/-- After region 2 its output array is one layer, without activation, of the arrays the region was entered with. -/
theorem final2 (V : (c : Dev nD) → (b : Ref sig .tc) → Buf (Elt Ideal) ((c : Thread nD τ).loc b)) (c : Dev nD) :
    (dat2 (F := Ideal) V c).arrAt 3 cfg2.N
      = Cert.Spec.layer 16384 32 32 (V c main_arg0) (V c main_v1) (V c main_arg4) := by
  exact (dat2 (F := Ideal) V c).arrAt_eq_of_cover 3 _ (fun t hf => flushed2_eq V c t hf) cover2_3

end Cert.KernelIdeal.Hand

end
-- ==== Proof.Ref.lean ====
import proofs.«141569_j26164940767949_1_alg».proof.Proof.Gen.ReferenceIdeal.Run
import proofs.«141569_j26164940767949_1_alg».proof.Proof.Gen.ReferenceIdeal.Read
import proofs.«141569_j26164940767949_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

private theorem l1_A (r : Fin 16384) (q : Fin 64) (j : Fin 64) (k : Fin 16384) :
    lidx_main_v0 (lidx_main_v2 (ix2 r q) j) k = ix2 r k :=
  funext fun a => Fin.ext (by match a with | ⟨0, _⟩ => rfl | ⟨1, _⟩ => rfl)
private theorem l1_h (r : Fin 16384) (q : Fin 64) (j : Fin 64) (k : Fin 16384) :
    ridx_main_v0 (lidx_main_v2 (ix2 r q) j) k = ix2 k j :=
  funext fun a => Fin.ext (by match a with | ⟨0, _⟩ => rfl | ⟨1, _⟩ => rfl)
private theorem l1_W (r : Fin 16384) (q : Fin 64) (j : Fin 64) :
    idx_main_v1 (ridx_main_v2 (ix2 r q) j) = ix2 q j :=
  funext fun a => Fin.ext (by match a with | ⟨0, _⟩ => rfl | ⟨1, _⟩ => rfl)

/-- The reference's first layer, read entry by entry: a host dot_general is the plain sum of products. -/
private theorem layer1 (a0 : FVec Ideal S16384x16384 .f32) (a1 : FVec Ideal S16384x64 .f32) (a2 : FVec Ideal S64x64 .f32) :
    val_main_v3 (F := Ideal) a0 a1 a2 = Cert.Spec.layerRelu 16384 64 64 a0 a1 a2 := by
  funext i
  obtain ⟨r, q, rfl⟩ : ∃ (r : Fin 16384) (q : Fin 64), i = ix2 r q := ⟨i 0, i 1, eq_ix2 i⟩
  rw [Cert.Spec.layerRelu_ix2, val_main_v3_apply, val_main_v2_apply, val_main_call0_v0_apply, val_main_call0_cst_apply,
    Ideal.maximumf_def, Ideal.ofBits_def, Ideal.ofBits_zero_f32]
  unfold Cert.Spec.layerAt
  refine congrArg (fun x => max x 0) (Finset.sum_congr rfl fun j _ => ?_)
  rw [val_main_v0_apply, val_main_v1_apply, l1_W]
  refine congrArg (fun x : EReal => x * a2 (ix2 q j)) (Finset.sum_congr rfl fun k _ => ?_)
  rw [l1_A, l1_h]

private theorem l2_A (r : Fin 16384) (q : Fin 32) (j : Fin 64) (k : Fin 16384) :
    lidx_main_v4 (lidx_main_v6 (ix2 r q) j) k = ix2 r k :=
  funext fun a => Fin.ext (by match a with | ⟨0, _⟩ => rfl | ⟨1, _⟩ => rfl)
private theorem l2_h (r : Fin 16384) (q : Fin 32) (j : Fin 64) (k : Fin 16384) :
    ridx_main_v4 (lidx_main_v6 (ix2 r q) j) k = ix2 k j :=
  funext fun a => Fin.ext (by match a with | ⟨0, _⟩ => rfl | ⟨1, _⟩ => rfl)
private theorem l2_W (r : Fin 16384) (q : Fin 32) (j : Fin 64) :
    idx_main_v5 (ridx_main_v6 (ix2 r q) j) = ix2 q j :=
  funext fun a => Fin.ext (by match a with | ⟨0, _⟩ => rfl | ⟨1, _⟩ => rfl)

private theorem layer2 (a0 : FVec Ideal S16384x16384 .f32) (a1 : FVec Ideal S16384x64 .f32) (a2 : FVec Ideal S64x64 .f32)
    (a3 : FVec Ideal S32x64 .f32) :
    val_main_v7 (F := Ideal) a0 a1 a2 a3
      = Cert.Spec.layerRelu 16384 64 32 a0 (val_main_v3 (F := Ideal) a0 a1 a2) a3 := by
  funext i
  obtain ⟨r, q, rfl⟩ : ∃ (r : Fin 16384) (q : Fin 32), i = ix2 r q := ⟨i 0, i 1, eq_ix2 i⟩
  rw [Cert.Spec.layerRelu_ix2, val_main_v7_apply, val_main_v6_apply, val_main_call1_v0_apply, val_main_call1_cst_apply,
    Ideal.maximumf_def, Ideal.ofBits_def, Ideal.ofBits_zero_f32]
  unfold Cert.Spec.layerAt
  refine congrArg (fun x => max x 0) (Finset.sum_congr rfl fun j _ => ?_)
  rw [val_main_v4_apply, val_main_v5_apply, l2_W]
  refine congrArg (fun x : EReal => x * a3 (ix2 q j)) (Finset.sum_congr rfl fun k _ => ?_)
  rw [l2_A, l2_h]

private theorem l3_A (r : Fin 16384) (q : Fin 32) (j : Fin 32) (k : Fin 16384) :
    lidx_main_v8 (lidx_main_v10 (ix2 r q) j) k = ix2 r k :=
  funext fun a => Fin.ext (by match a with | ⟨0, _⟩ => rfl | ⟨1, _⟩ => rfl)
private theorem l3_h (r : Fin 16384) (q : Fin 32) (j : Fin 32) (k : Fin 16384) :
    ridx_main_v8 (lidx_main_v10 (ix2 r q) j) k = ix2 k j :=
  funext fun a => Fin.ext (by match a with | ⟨0, _⟩ => rfl | ⟨1, _⟩ => rfl)
private theorem l3_W (r : Fin 16384) (q : Fin 32) (j : Fin 32) :
    idx_main_v9 (ridx_main_v10 (ix2 r q) j) = ix2 q j :=
  funext fun a => Fin.ext (by match a with | ⟨0, _⟩ => rfl | ⟨1, _⟩ => rfl)

private theorem layer3 (a0 : FVec Ideal S16384x16384 .f32) (a1 : FVec Ideal S16384x64 .f32) (a2 : FVec Ideal S64x64 .f32)
    (a3 : FVec Ideal S32x64 .f32) (a4 : FVec Ideal S32x32 .f32) :
    val_main_v10 (F := Ideal) a0 a1 a2 a3 a4
      = Cert.Spec.layer 16384 32 32 a0 (val_main_v7 (F := Ideal) a0 a1 a2 a3) a4 := by
  funext i
  obtain ⟨r, q, rfl⟩ : ∃ (r : Fin 16384) (q : Fin 32), i = ix2 r q := ⟨i 0, i 1, eq_ix2 i⟩
  rw [Cert.Spec.layer_ix2, val_main_v10_apply]
  unfold Cert.Spec.layerAt
  refine Finset.sum_congr rfl fun j _ => ?_
  rw [val_main_v8_apply, val_main_v9_apply, l3_W]
  refine congrArg (fun x : EReal => x * a4 (ix2 q j)) (Finset.sum_congr rfl fun k _ => ?_)
  rw [l3_A, l3_h]

/-- The reference's result is three nested layers of its arguments. -/
theorem ref_eq (a0 : FVec Ideal S16384x16384 .f32) (a1 : FVec Ideal S16384x64 .f32) (a2 : FVec Ideal S64x64 .f32)
    (a3 : FVec Ideal S32x64 .f32) (a4 : FVec Ideal S32x32 .f32) :
    Host.dotGeneral dot_S16384x32_S32x32_S16384x32_1_0_0_1_n_n none (Host.dotGeneral dot_S16384x16384_S16384x32_S16384x32_1_0_0_1_n_n none a0 (maximumf (Host.dotGeneral dot_S16384x64_S64x32_S16384x32_1_0_0_1_n_n none (Host.dotGeneral dot_S16384x16384_S16384x64_S16384x64_1_0_0_1_n_n none a0 (maximumf (Host.dotGeneral dot_S16384x64_S64x64_S16384x64_1_0_0_1_n_n none (Host.dotGeneral dot_S16384x16384_S16384x64_S16384x64_1_0_0_1_n_n none a0 a1) (transpose S64x64 [1, 0] a2 transposes_S64x64_S64x64_1_0)) (broadcastInDim S16384x64 ![] bcast_S_S16384x64 (constant S_ .f32 0x00000000#32)))) (transpose S64x32 [1, 0] a3 transposes_S32x64_S64x32_1_0)) (broadcastInDim S16384x32 ![] bcast_S_S16384x32 (constant S_ .f32 0x00000000#32)))) (transpose S32x32 [1, 0] a4 transposes_S32x32_S32x32_1_0)
      = Cert.Spec.layer 16384 32 32 a0 (Cert.Spec.layerRelu 16384 64 32 a0 (Cert.Spec.layerRelu 16384 64 64 a0 a1 a2) a3) a4 := by
  refine (val_main_v10_eq (F := Ideal) a0 a1 a2 a3 a4).trans ?_
  rw [layer3, layer2, layer1]

end Cert.ReferenceIdeal.RefValue

end
-- ==== Proof.lean ====
/-
  Three graph-convolution layers, relu?((A · h) · Wᵀ). Each kernel cuts the contraction over A's 16384 columns into 16 steps
  of 1024 and adds the steps' block products in an accumulator; addition of extended reals is commutative and associative,
  so after the 16th step the accumulator holds the whole contraction, and each kernel's output is one layer of its inputs.
  No finiteness is needed: the precondition is never opened.
-/
import proofs.«141569_j26164940767949_1_alg».proof.Defs
import proofs.«141569_j26164940767949_1_alg».proof.Proof.Gen.Kernel
import proofs.«141569_j26164940767949_1_alg».proof.Proof.Gen.KernelIdeal
import proofs.«141569_j26164940767949_1_alg».proof.Proof.Gen.ReferenceIdeal
import proofs.«141569_j26164940767949_1_alg».proof.Proof.Gen.Pre_finite_inputs
import proofs.«141569_j26164940767949_1_alg».proof.Proof.K.Run
import proofs.«141569_j26164940767949_1_alg».proof.Proof.KI.Run
import proofs.«141569_j26164940767949_1_alg».proof.Proof.KI.Val0
import proofs.«141569_j26164940767949_1_alg».proof.Proof.KI.Val1
import proofs.«141569_j26164940767949_1_alg».proof.Proof.KI.Val2
import proofs.«141569_j26164940767949_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- What the third region leaves in the result array, in terms of the launch contents: three nested layers; A and the weights are as launched, no region writing them. -/
theorem kernel_value (m : (ℓ : Loc Cert.KernelIdeal.nD Cert.KernelIdeal.τ Cert.KernelIdeal.sig) → Buf (Elt Ideal) ℓ) (c : Dev Cert.KernelIdeal.nD) :
    (Cert.KernelIdeal.Hand.dat2 (F := Ideal) (Cert.KernelIdeal.Hand.E2 m) c).arrAt 3 Cert.KernelIdeal.cfg2.N
      = Cert.Spec.layer 16384 32 32 (m ((c.tc : Thread Cert.KernelIdeal.nD Cert.KernelIdeal.τ).loc Cert.KernelIdeal.main_arg0))
          (Cert.Spec.layerRelu 16384 64 32 (m ((c.tc : Thread Cert.KernelIdeal.nD Cert.KernelIdeal.τ).loc Cert.KernelIdeal.main_arg0))
            (Cert.Spec.layerRelu 16384 64 64 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) := by
  rw [Cert.KernelIdeal.Hand.final2, Cert.KernelIdeal.Hand.E2_main_arg0, Cert.KernelIdeal.Hand.E2_main_v1, Cert.KernelIdeal.Hand.E2_main_arg4,
    Cert.KernelIdeal.Hand.final1, Cert.KernelIdeal.Hand.E1_main_arg0, Cert.KernelIdeal.Hand.E1_main_v0, Cert.KernelIdeal.Hand.E1_main_arg3, Cert.KernelIdeal.Hand.final0]

/-- From memories agreeing on the arguments both programs end with the same result array. -/
theorem algebraic : Cert.algebraic_KernelIdeal_ReferenceIdeal := by
  intro m ρ m' ρ' _ hagree
  refine ⟨fun c => (Cert.KernelIdeal.Hand.dat2 (F := Ideal) (Cert.KernelIdeal.Hand.E2 m) c).arrAt 3 Cert.KernelIdeal.cfg2.N, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.RefValue.ref_eq _ _ _ _ _).trans (kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
